-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1364) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x784 : Shape := ⟨2, ![8192, 784]⟩
abbrev S784x4096 : Shape := ⟨2, ![784, 4096]⟩
abbrev S4096 : Shape := ⟨1, ![4096]⟩
abbrev S4096x4096 : Shape := ⟨2, ![4096, 4096]⟩
abbrev S4096x10 : Shape := ⟨2, ![4096, 10]⟩
abbrev S10 : Shape := ⟨1, ![10]⟩
abbrev S_ : Shape := ⟨0, ![]⟩

class Facts : Prop where
  bcast_S_S8192x784 : S_.BroadcastsInDim S8192x784 (![] : Fin 0 → Fin S8192x784.rank)
  reducesTo_S8192x784_S_d0_1 : S8192x784.ReducesTo [0, 1] S_
  h_S_ : 0 < S_.numel
  bcast_S_S784x4096 : S_.BroadcastsInDim S784x4096 (![] : Fin 0 → Fin S784x4096.rank)
  reducesTo_S784x4096_S_d0_1 : S784x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096x10 : S_.BroadcastsInDim S4096x10 (![] : Fin 0 → Fin S4096x10.rank)
  reducesTo_S4096x10_S_d0_1 : S4096x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S4096 .f32) (main_arg5 : FVec F S4096x10 .f32) (main_arg6 : FVec F S10 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x10 .f32 := Host.absf main_arg5
  let main_cst_8 : FVec F S_ .f32 := constant S_ .f32 0x7F800000#32
  let main_v25 : FVec F S4096x10 .f32 := broadcastInDim S4096x10 ![] bcast_S_S4096x10 main_cst_8
  let main_v26 : IVec S4096x10 1 := cmpf .olt main_v24 main_v25
  let main_c_9 : IVec S_ 1 := constantI S_ 1 1#1
  let main_v27 : IVec S_ 1 := (fun x v => Host.reduce IntOp.andi x v reducesTo_S4096x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S8192x784 .f32) (main_arg1 : FVec F S784x4096 .f32) (main_arg2 : FVec F S4096 .f32) (main_arg3 : FVec F S4096x4096 .f32) (main_arg4 : FVec F S4096 .f32) (main_arg5 : FVec F S4096x10 .f32) (main_arg6 : FVec F S10 .f32) : IVec S_ 1 :=
  let main_v0 : FVec F S8192x784 .f32 := Host.absf main_arg0
  let main_cst : FVec F S_ .f32 := constant S_ .f32 0x7F800000#32
  let main_v1 : FVec F S8192x784 .f32 := broadcastInDim S8192x784 ![] bcast_S_S8192x784 main_cst
  let main_v2 : IVec S8192x784 1 := cmpf .olt main_v0 main_v1
  let main_c : IVec S_ 1 := constantI S_ 1 1#1
  let main_v3 : IVec S_ 1 := (fun x v => Host.reduce IntOp.andi x v reducesTo_S8192x784_S_d0_1 h_S_) main_v2 main_c
  let main_v4 : FVec F S784x4096 .f32 := Host.absf main_arg1
  let main_cst_0 : FVec F S_ .f32 := constant S_ .f32 0x7F800000#32
  let main_v5 : FVec F S784x4096 .f32 := broadcastInDim S784x4096 ![] bcast_S_S784x4096 main_cst_0
  let main_v6 : IVec S784x4096 1 := cmpf .olt main_v4 main_v5
  let main_c_1 : IVec S_ 1 := constantI S_ 1 1#1
  let main_v7 : IVec S_ 1 := (fun x v => Host.reduce IntOp.andi x v reducesTo_S784x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S8192x784 : Shape := ⟨2, ![8192, 784]⟩
abbrev S784x4096 : Shape := ⟨2, ![784, 4096]⟩
abbrev S4096 : Shape := ⟨1, ![4096]⟩
abbrev S4096x4096 : Shape := ⟨2, ![4096, 4096]⟩
abbrev S4096x10 : Shape := ⟨2, ![4096, 10]⟩
abbrev S10 : Shape := ⟨1, ![10]⟩
abbrev S8192x4096 : Shape := ⟨2, ![8192, 4096]⟩
abbrev S512x784 : Shape := ⟨2, ![512, 784]⟩
abbrev S512x4096 : Shape := ⟨2, ![512, 4096]⟩
abbrev S1x4096 : Shape := ⟨2, ![1, 4096]⟩
abbrev S128x4096 : Shape := ⟨2, ![128, 4096]⟩
abbrev S8192 : Shape := ⟨1, ![8192]⟩
abbrev S1024x4096 : Shape := ⟨2, ![1024, 4096]⟩
abbrev S1024 : Shape := ⟨1, ![1024]⟩
abbrev S1024x10 : Shape := ⟨2, ![1024, 10]⟩
abbrev S1x10 : Shape := ⟨2, ![1, 10]⟩
abbrev S1024x1 : Shape := ⟨2, ![1024, 1]⟩

abbrev nBuf : Space → Nat
  | .hbm => 14
  | .vmem => 18
  | .smem => 0
  | _ => 0

abbrev bufTy : (tb : Table) → Fin (tcTables nBuf tb) → BufTy
  | .hbm, ⟨0, _⟩ => ⟨S8192x784, .f32⟩
  | .hbm, ⟨1, _⟩ => ⟨S784x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x10, .f32⟩
  | .hbm, ⟨6, _⟩ => ⟨S10, .f32⟩
  | .hbm, ⟨7, _⟩ => ⟨S8192x784, .bf16⟩
  | .hbm, ⟨8, _⟩ => ⟨S784x4096, .bf16⟩
  | .hbm, ⟨9, _⟩ => ⟨S4096x4096, .bf16⟩
  | .hbm, ⟨10, _⟩ => ⟨S4096x10, .bf16⟩
  | .hbm, ⟨11, _⟩ => ⟨S8192x4096, .bf16⟩
  | .hbm, ⟨12, _⟩ => ⟨S8192x4096, .bf16⟩
  | .hbm, ⟨13, _⟩ => ⟨S8192, .f32⟩
  | .local _ .vmem, ⟨0, _⟩ => ⟨S512x784, .bf16⟩
  | .local _ .vmem, ⟨1, _⟩ => ⟨S512x784, .bf16⟩
  | .local _ .vmem, ⟨2, _⟩ => ⟨S784x4096, .bf16⟩
  | .local _ .vmem, ⟨3, _⟩ => ⟨S4096, .f32⟩
  | .local _ .vmem, ⟨4, _⟩ => ⟨S512x4096, .bf16⟩
  | .local _ .vmem, ⟨5, _⟩ => ⟨S512x4096, .bf16⟩
  | .local _ .vmem, ⟨6, _⟩ => ⟨S128x4096, .bf16⟩
  | .local _ .vmem, ⟨7, _⟩ => ⟨S128x4096, .bf16⟩
  | .local _ .vmem, ⟨8, _⟩ => ⟨S4096x4096, .bf16⟩
  | .local _ .vmem, ⟨9, _⟩ => ⟨S4096, .f32⟩
  | .local _ .vmem, ⟨10, _⟩ => ⟨S128x4096, .bf16⟩
  | .local _ .vmem, ⟨11, _⟩ => ⟨S128x4096, .bf16⟩
  | .local _ .vmem, ⟨12, _⟩ => ⟨S1024x4096, .bf16⟩
  | .local _ .vmem, ⟨13, _⟩ => ⟨S1024x4096, .bf16⟩
  | .local _ .vmem, ⟨14, _⟩ => ⟨S4096x10, .bf16⟩
  | .local _ .vmem, ⟨15, _⟩ => ⟨S10, .f32⟩
  | .local _ .vmem, ⟨16, _⟩ => ⟨S1024, .f32⟩
  | .local _ .vmem, ⟨17, _⟩ => ⟨S1024, .f32⟩
  | _, _ => ⟨S8192x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x784 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x10 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  inb_S512x784_S512x784_0_0 : ∀ a, (![0, 0] : Fin 2 → Nat) a + S512x784.size a ≤ S512x784.size a
  h_S512x784 : 0 < S512x784.numel
  shapeCasts_S512x784_S512x784 : S512x784.ShapeCasts S512x784
  inb_S784x4096_S784x4096_0_0 : ∀ a, (![0, 0] : Fin 2 → Nat) a + S784x4096.size a ≤ S784x4096.size a
  h_S784x4096 : 0 < S784x4096.numel
  shapeCasts_S784x4096_S784x4096 : S784x4096.ShapeCasts S784x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  broadcasts_S1x4096_S128x4096 : S1x4096.Broadcasts S128x4096
  packedbf16_S128x4096_S128x4096_0_0 : (Rect.unit (s := S128x4096) ![0, 0] S128x4096.size inb_S128x4096_S128x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x10_S4096x10_0_0 : ∀ a, (![0, 0] : Fin 2 → Nat) a + S4096x10.size a ≤ S4096x10.size a
  h_S4096x10 : 0 < S4096x10.numel
  shapeCasts_S4096x10_S4096x10 : S4096x10.ShapeCasts S4096x10
  inb_S10_S10_0 : ∀ a, (![0] : Fin 1 → Nat) a + S10.size a ≤ S10.size a
  h_S10 : 0 < S10.numel
  shapeCasts_S10_S1x10 : S10.ShapeCasts S1x10
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  slices_S1024x10_o0_0_S1024x1 : S1024x10.Slices ![0, 0] S1024x1
  slices_S1024x10_o0_1_S1024x1 : S1024x10.Slices ![0, 1] S1024x1
  slices_S1024x10_o0_2_S1024x1 : S1024x10.Slices ![0, 2] S1024x1
  slices_S1024x10_o0_3_S1024x1 : S1024x10.Slices ![0, 3] S1024x1
  slices_S1024x10_o0_4_S1024x1 : S1024x10.Slices ![0, 4] S1024x1
  slices_S1024x10_o0_5_S1024x1 : S1024x10.Slices ![0, 5] S1024x1
  slices_S1024x10_o0_6_S1024x1 : S1024x10.Slices ![0, 6] S1024x1
  slices_S1024x10_o0_7_S1024x1 : S1024x10.Slices ![0, 7] S1024x1
  slices_S1024x10_o0_8_S1024x1 : S1024x10.Slices ![0, 8] S1024x1
  slices_S1024x10_o0_9_S1024x1 : S1024x10.Slices ![0, 9] S1024x1
  shapeCasts_S1024x1_S1024 : S1024x1.ShapeCasts S1024
  inb_S1024_S1024_0 : ∀ a, (![0] : Fin 1 → Nat) a + S1024.size a ≤ S1024.size a
  h_S1024 : 0 < S1024.numel
  dot_S512x784_S784x4096_S512x4096_1_0_0_1_n_n_wf : DotDims.WF S512x784 S784x4096 S512x4096 [1] [0] [0] [1] [] []
  dot_S128x4096_S4096x4096_S128x4096_1_0_0_1_n_n_wf : DotDims.WF S128x4096 S4096x4096 S128x4096 [1] [0] [0] [1] [] []
  dot_S1024x4096_S4096x10_S1024x10_1_0_0_1_n_n_wf : DotDims.WF S1024x4096 S4096x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S8192x784.size a
  hwx0_0 : ∀ i : grid0.Coords, EltTy.bits .bf16 = 32 ∨ (Rect.block (s := S8192x784) S512x784.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x4096.size a ≤ S784x4096.size a
  hwx0_1 : ∀ i : grid0.Coords, EltTy.bits .bf16 = 32 ∨ (Rect.block (s := S784x4096) S784x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .bf16 = 32 ∨ (Rect.block (s := S8192x4096) S512x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .bf16 = 32 ∨ (Rect.block (s := S8192x4096) S128x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S4096.size a
  hwx1_2 : ∀ i : grid1.Coords, EltTy.bits .f32 = 32 ∨ (Rect.block (s := S4096) S4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S8192x4096.size a
  hwx1_3 : ∀ i : grid1.Coords, EltTy.bits .bf16 = 32 ∨ (Rect.block (s := S8192x4096) S128x4096.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S8192x4096.size a
  hwx2_0 : ∀ i : grid2.Coords, EltTy.bits .bf16 = 32 ∨ (Rect.block (s := S8192x4096) S1024x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x10.size a ≤ S4096x10.size a
  hwx2_1 : ∀ i : grid2.Coords, EltTy.bits .bf16 = 32 ∨ (Rect.block (s := S4096x10) S4096x10.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10.size a ≤ S10.size a
  hwx2_2 : ∀ i : grid2.Coords, EltTy.bits .f32 = 32 ∨ (Rect.block (s := S10) S10.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S8192.size a
  hwx2_3 : ∀ i : grid2.Coords, EltTy.bits .f32 = 32 ∨ (Rect.block (s := S8192) S1024.size (cc2_transform_3 i) (hinb2_3 i)).WholeWords (EltTy.packing .f32)

variable [Facts₀]

def dot_S512x784_S784x4096_S512x4096_1_0_0_1_n_n : DotDims S512x784 S784x4096 S512x4096 where
  lhsContracting := [1]
  rhsContracting := [0]
  lhsNonContracting := [0]
  rhsNonContracting := [1]
  lhsBatch := []
  rhsBatch := []
  wf := dot_S512x784_S784x4096_S512x4096_1_0_0_1_n_n_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf
def dot_S1024x4096_S4096x10_S1024x10_1_0_0_1_n_n : DotDims S1024x4096 S4096x10 S1024x10 where
  lhsContracting := [1]
  rhsContracting := [0]
  lhsNonContracting := [0]
  rhsNonContracting := [1]
  lhsBatch := []
  rhsBatch := []
  wf := dot_S1024x4096_S4096x10_S1024x10_1_0_0_1_n_n_wf

abbrev win0_0 : Pipeline.Window sig grid0 :=
  Pipeline.Window.ofSpec (Memref.whole main_v0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S784x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S4096x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x784 : Shape := ⟨2, ![8192, 784]⟩
abbrev S784x4096 : Shape := ⟨2, ![784, 4096]⟩
abbrev S4096 : Shape := ⟨1, ![4096]⟩
abbrev S4096x4096 : Shape := ⟨2, ![4096, 4096]⟩
abbrev S4096x10 : Shape := ⟨2, ![4096, 10]⟩
abbrev S10 : Shape := ⟨1, ![10]⟩
abbrev S8192x4096 : Shape := ⟨2, ![8192, 4096]⟩
abbrev S1x4096 : Shape := ⟨2, ![1, 4096]⟩
abbrev S_ : Shape := ⟨0, ![]⟩
abbrev S8192x10 : Shape := ⟨2, ![8192, 10]⟩
abbrev S1x10 : Shape := ⟨2, ![1, 10]⟩
abbrev S8192 : Shape := ⟨1, ![8192]⟩
abbrev S8192x1 : Shape := ⟨2, ![8192, 1]⟩

abbrev nBuf : Space → Nat
  | .hbm => 1389
  | .vmem => 0
  | .smem => 0
  | _ => 0

abbrev hbmTy0_0 (i : Nat) : BufTy := match i % 128 with
  | 0 => ⟨S8192x784, .f32⟩
  | 1 => ⟨S784x4096, .f32⟩
  | 2 => ⟨S4096, .f32⟩
  | 3 => ⟨S4096x4096, .f32⟩
  | 4 => ⟨S4096, .f32⟩
  | 5 => ⟨S4096x10, .f32⟩
  | 6 => ⟨S10, .f32⟩
  | 7 => ⟨S8192x4096, .f32⟩
  | 8 => ⟨S1x4096, .f32⟩
  | 9 => ⟨S8192x4096, .f32⟩
  | 10 => ⟨S8192x4096, .f32⟩
  | 11 => ⟨S_, .f32⟩
  | 12 => ⟨S8192x4096, .f32⟩
  | 13 => ⟨S8192x4096, .f32⟩
  | 14 => ⟨S8192x4096, .f32⟩
  | 15 => ⟨S1x4096, .f32⟩
  | 16 => ⟨S8192x4096, .f32⟩
  | 17 => ⟨S8192x4096, .f32⟩
  | 18 => ⟨S_, .f32⟩
  | 19 => ⟨S8192x4096, .f32⟩
  | 20 => ⟨S8192x4096, .f32⟩
  | 21 => ⟨S8192x10, .f32⟩
  | 22 => ⟨S1x10, .f32⟩
  | 23 => ⟨S8192x10, .f32⟩
  | 24 => ⟨S8192x10, .f32⟩
  | 25 => ⟨S_, .f32⟩
  | 26 => ⟨S8192, .f32⟩
  | 27 => ⟨S_, .f32⟩
  | 28 => ⟨S8192, .f32⟩
  | 29 => ⟨S8192, .f32⟩
  | 30 => ⟨S8192x1, .f32⟩
  | 31 => ⟨S8192x10, .f32⟩
  | 32 => ⟨S8192x10, .f32⟩
  | 33 => ⟨S8192x10, .f32⟩
  | 34 => ⟨S_, .f32⟩
  | 35 => ⟨S8192, .f32⟩
  | 36 => ⟨S8192x1, .f32⟩
  | 37 => ⟨S8192x10, .f32⟩
  | 38 => ⟨S8192x10, .f32⟩
  | 39 => ⟨S8192x1, .f32⟩
  | 40 => ⟨S8192, .f32⟩
  | 41 => ⟨S8192x1, .f32⟩
  | 42 => ⟨S8192, .f32⟩
  | 43 => ⟨S8192x1, .f32⟩
  | 44 => ⟨S8192, .f32⟩
  | 45 => ⟨S8192x1, .f32⟩
  | 46 => ⟨S8192, .f32⟩
  | 47 => ⟨S8192x1, .f32⟩
  | 48 => ⟨S8192, .f32⟩
  | 49 => ⟨S8192x1, .f32⟩
  | 50 => ⟨S8192, .f32⟩
  | 51 => ⟨S8192x1, .f32⟩
  | 52 => ⟨S8192, .f32⟩
  | 53 => ⟨S8192x1, .f32⟩
  | 54 => ⟨S8192, .f32⟩
  | 55 => ⟨S8192x1, .f32⟩
  | 56 => ⟨S8192, .f32⟩
  | 57 => ⟨S8192x1, .f32⟩
  | 58 => ⟨S8192, .f32⟩
  | 59 => ⟨S8192x1, .f32⟩
  | 60 => ⟨S8192, .f32⟩
  | 61 => ⟨S_, .f32⟩
  | 62 => ⟨S8192, .f32⟩
  | 63 => ⟨S8192, .f32⟩
  | 64 => ⟨S8192x1, .f32⟩
  | 65 => ⟨S8192, .f32⟩
  | 66 => ⟨S_, .f32⟩
  | 67 => ⟨S8192, .f32⟩
  | 68 => ⟨S8192, .f32⟩
  | 69 => ⟨S8192x1, .f32⟩
  | 70 => ⟨S8192, .f32⟩
  | 71 => ⟨S_, .f32⟩
  | 72 => ⟨S8192, .f32⟩
  | 73 => ⟨S8192, .f32⟩
  | 74 => ⟨S8192x1, .f32⟩
  | 75 => ⟨S8192, .f32⟩
  | 76 => ⟨S_, .f32⟩
  | 77 => ⟨S8192, .f32⟩
  | 78 => ⟨S8192, .f32⟩
  | 79 => ⟨S8192x1, .f32⟩
  | 80 => ⟨S8192, .f32⟩
  | 81 => ⟨S_, .f32⟩
  | 82 => ⟨S8192, .f32⟩
  | 83 => ⟨S8192, .f32⟩
  | 84 => ⟨S8192x1, .f32⟩
  | 85 => ⟨S8192, .f32⟩
  | 86 => ⟨S_, .f32⟩
  | 87 => ⟨S8192, .f32⟩
  | 88 => ⟨S8192, .f32⟩
  | 89 => ⟨S8192x1, .f32⟩
  | 90 => ⟨S8192, .f32⟩
  | 91 => ⟨S_, .f32⟩
  | 92 => ⟨S8192, .f32⟩
  | 93 => ⟨S8192, .f32⟩
  | 94 => ⟨S8192x1, .f32⟩
  | 95 => ⟨S8192, .f32⟩
  | 96 => ⟨S_, .f32⟩
  | 97 => ⟨S8192, .f32⟩
  | 98 => ⟨S8192, .f32⟩
  | 99 => ⟨S8192x1, .f32⟩
  | 100 => ⟨S8192, .f32⟩
  | 101 => ⟨S_, .f32⟩
  | 102 => ⟨S8192, .f32⟩
  | 103 => ⟨S8192, .f32⟩
  | 104 => ⟨S8192x1, .f32⟩
  | 105 => ⟨S8192, .f32⟩
  | 106 => ⟨S_, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_1 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_2 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_3 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_4 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_5 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_6 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_7 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_8 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_9 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_10 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | _ => ⟨S8192x784, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S8192x784, .f32⟩

abbrev bufTy : (tb : Table) → Fin (tcTables nBuf tb) → BufTy
  | .hbm, ⟨i, _⟩ => hbmTy i
  | _, _ => ⟨S8192x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_2 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_3 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_4 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_5 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_6 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_7 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_8 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_9 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_10 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_11 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_v285 : Ref sig .tc := ⟨.hbm, 309, rfl⟩
abbrev main_v286 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_v290 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_v309 : Ref sig .tc := ⟨.hbm, 333, rfl⟩
abbrev main_v310 : Ref sig .tc := ⟨.hbm, 334, rfl⟩
abbrev main_v311 : Ref sig .tc := ⟨.hbm, 335, rfl⟩
abbrev main_v312 : Ref sig .tc := ⟨.hbm, 336, rfl⟩
abbrev main_v313 : Ref sig .tc := ⟨.hbm, 337, rfl⟩
abbrev main_v314 : Ref sig .tc := ⟨.hbm, 338, rfl⟩
abbrev main_v315 : Ref sig .tc := ⟨.hbm, 339, rfl⟩
abbrev main_v316 : Ref sig .tc := ⟨.hbm, 340, rfl⟩
abbrev main_v317 : Ref sig .tc := ⟨.hbm, 341, rfl⟩
abbrev main_v318 : Ref sig .tc := ⟨.hbm, 342, rfl⟩
abbrev main_v319 : Ref sig .tc := ⟨.hbm, 343, rfl⟩
abbrev main_v320 : Ref sig .tc := ⟨.hbm, 344, rfl⟩
abbrev main_v321 : Ref sig .tc := ⟨.hbm, 345, rfl⟩
abbrev main_v322 : Ref sig .tc := ⟨.hbm, 346, rfl⟩
abbrev main_v323 : Ref sig .tc := ⟨.hbm, 347, rfl⟩
abbrev main_v324 : Ref sig .tc := ⟨.hbm, 348, rfl⟩
abbrev main_v325 : Ref sig .tc := ⟨.hbm, 349, rfl⟩
abbrev main_v326 : Ref sig .tc := ⟨.hbm, 350, rfl⟩
abbrev main_v327 : Ref sig .tc := ⟨.hbm, 351, rfl⟩
abbrev main_v328 : Ref sig .tc := ⟨.hbm, 352, rfl⟩
abbrev main_v329 : Ref sig .tc := ⟨.hbm, 353, rfl⟩
abbrev main_v330 : Ref sig .tc := ⟨.hbm, 354, rfl⟩
abbrev main_v331 : Ref sig .tc := ⟨.hbm, 355, rfl⟩
abbrev main_v332 : Ref sig .tc := ⟨.hbm, 356, rfl⟩
abbrev main_v333 : Ref sig .tc := ⟨.hbm, 357, rfl⟩
abbrev main_v334 : Ref sig .tc := ⟨.hbm, 358, rfl⟩
abbrev main_v335 : Ref sig .tc := ⟨.hbm, 359, rfl⟩
abbrev main_v336 : Ref sig .tc := ⟨.hbm, 360, rfl⟩
abbrev main_v337 : Ref sig .tc := ⟨.hbm, 361, rfl⟩
abbrev main_v338 : Ref sig .tc := ⟨.hbm, 362, rfl⟩
abbrev main_v339 : Ref sig .tc := ⟨.hbm, 363, rfl⟩
abbrev main_v340 : Ref sig .tc := ⟨.hbm, 364, rfl⟩
abbrev main_v341 : Ref sig .tc := ⟨.hbm, 365, rfl⟩
abbrev main_v342 : Ref sig .tc := ⟨.hbm, 366, rfl⟩
abbrev main_v343 : Ref sig .tc := ⟨.hbm, 367, rfl⟩
abbrev main_v344 : Ref sig .tc := ⟨.hbm, 368, rfl⟩
abbrev main_v345 : Ref sig .tc := ⟨.hbm, 369, rfl⟩
abbrev main_v346 : Ref sig .tc := ⟨.hbm, 370, rfl⟩
abbrev main_v347 : Ref sig .tc := ⟨.hbm, 371, rfl⟩
abbrev main_v348 : Ref sig .tc := ⟨.hbm, 372, rfl⟩
abbrev main_v349 : Ref sig .tc := ⟨.hbm, 373, rfl⟩
abbrev main_v350 : Ref sig .tc := ⟨.hbm, 374, rfl⟩
abbrev main_v351 : Ref sig .tc := ⟨.hbm, 375, rfl⟩
abbrev main_v352 : Ref sig .tc := ⟨.hbm, 376, rfl⟩
abbrev main_v353 : Ref sig .tc := ⟨.hbm, 377, rfl⟩
abbrev main_v354 : Ref sig .tc := ⟨.hbm, 378, rfl⟩
abbrev main_v355 : Ref sig .tc := ⟨.hbm, 379, rfl⟩
abbrev main_v356 : Ref sig .tc := ⟨.hbm, 380, rfl⟩
abbrev main_v357 : Ref sig .tc := ⟨.hbm, 381, rfl⟩
abbrev main_v358 : Ref sig .tc := ⟨.hbm, 382, rfl⟩
abbrev main_v359 : Ref sig .tc := ⟨.hbm, 383, rfl⟩
abbrev main_v360 : Ref sig .tc := ⟨.hbm, 384, rfl⟩
abbrev main_v361 : Ref sig .tc := ⟨.hbm, 385, rfl⟩
abbrev main_v362 : Ref sig .tc := ⟨.hbm, 386, rfl⟩
abbrev main_v363 : Ref sig .tc := ⟨.hbm, 387, rfl⟩
abbrev main_v364 : Ref sig .tc := ⟨.hbm, 388, rfl⟩
abbrev main_v365 : Ref sig .tc := ⟨.hbm, 389, rfl⟩
abbrev main_v366 : Ref sig .tc := ⟨.hbm, 390, rfl⟩
abbrev main_v367 : Ref sig .tc := ⟨.hbm, 391, rfl⟩
abbrev main_v368 : Ref sig .tc := ⟨.hbm, 392, rfl⟩
abbrev main_v369 : Ref sig .tc := ⟨.hbm, 393, rfl⟩
abbrev main_v370 : Ref sig .tc := ⟨.hbm, 394, rfl⟩
abbrev main_v371 : Ref sig .tc := ⟨.hbm, 395, rfl⟩
abbrev main_v372 : Ref sig .tc := ⟨.hbm, 396, rfl⟩
abbrev main_v373 : Ref sig .tc := ⟨.hbm, 397, rfl⟩
abbrev main_v374 : Ref sig .tc := ⟨.hbm, 398, rfl⟩
abbrev main_v375 : Ref sig .tc := ⟨.hbm, 399, rfl⟩
abbrev main_v376 : Ref sig .tc := ⟨.hbm, 400, rfl⟩
abbrev main_v377 : Ref sig .tc := ⟨.hbm, 401, rfl⟩
abbrev main_v378 : Ref sig .tc := ⟨.hbm, 402, rfl⟩
abbrev main_v379 : Ref sig .tc := ⟨.hbm, 403, rfl⟩
abbrev main_v380 : Ref sig .tc := ⟨.hbm, 404, rfl⟩
abbrev main_v381 : Ref sig .tc := ⟨.hbm, 405, rfl⟩
abbrev main_v382 : Ref sig .tc := ⟨.hbm, 406, rfl⟩
abbrev main_v383 : Ref sig .tc := ⟨.hbm, 407, rfl⟩
abbrev main_v384 : Ref sig .tc := ⟨.hbm, 408, rfl⟩
abbrev main_v385 : Ref sig .tc := ⟨.hbm, 409, rfl⟩
abbrev main_v386 : Ref sig .tc := ⟨.hbm, 410, rfl⟩
abbrev main_v387 : Ref sig .tc := ⟨.hbm, 411, rfl⟩
abbrev main_v388 : Ref sig .tc := ⟨.hbm, 412, rfl⟩
abbrev main_v389 : Ref sig .tc := ⟨.hbm, 413, rfl⟩
abbrev main_v390 : Ref sig .tc := ⟨.hbm, 414, rfl⟩
abbrev main_v391 : Ref sig .tc := ⟨.hbm, 415, rfl⟩
abbrev main_v392 : Ref sig .tc := ⟨.hbm, 416, rfl⟩
abbrev main_v393 : Ref sig .tc := ⟨.hbm, 417, rfl⟩
abbrev main_v394 : Ref sig .tc := ⟨.hbm, 418, rfl⟩
abbrev main_v395 : Ref sig .tc := ⟨.hbm, 419, rfl⟩
abbrev main_v396 : Ref sig .tc := ⟨.hbm, 420, rfl⟩
abbrev main_v397 : Ref sig .tc := ⟨.hbm, 421, rfl⟩
abbrev main_v398 : Ref sig .tc := ⟨.hbm, 422, rfl⟩
abbrev main_v399 : Ref sig .tc := ⟨.hbm, 423, rfl⟩
abbrev main_v400 : Ref sig .tc := ⟨.hbm, 424, rfl⟩
abbrev main_v401 : Ref sig .tc := ⟨.hbm, 425, rfl⟩
abbrev main_v402 : Ref sig .tc := ⟨.hbm, 426, rfl⟩
abbrev main_v403 : Ref sig .tc := ⟨.hbm, 427, rfl⟩
abbrev main_v404 : Ref sig .tc := ⟨.hbm, 428, rfl⟩
abbrev main_v405 : Ref sig .tc := ⟨.hbm, 429, rfl⟩
abbrev main_v406 : Ref sig .tc := ⟨.hbm, 430, rfl⟩
abbrev main_v407 : Ref sig .tc := ⟨.hbm, 431, rfl⟩
abbrev main_v408 : Ref sig .tc := ⟨.hbm, 432, rfl⟩
abbrev main_v409 : Ref sig .tc := ⟨.hbm, 433, rfl⟩
abbrev main_v410 : Ref sig .tc := ⟨.hbm, 434, rfl⟩
abbrev main_v411 : Ref sig .tc := ⟨.hbm, 435, rfl⟩
abbrev main_v412 : Ref sig .tc := ⟨.hbm, 436, rfl⟩
abbrev main_v413 : Ref sig .tc := ⟨.hbm, 437, rfl⟩
abbrev main_v414 : Ref sig .tc := ⟨.hbm, 438, rfl⟩
abbrev main_v415 : Ref sig .tc := ⟨.hbm, 439, rfl⟩
abbrev main_v416 : Ref sig .tc := ⟨.hbm, 440, rfl⟩
abbrev main_v417 : Ref sig .tc := ⟨.hbm, 441, rfl⟩
abbrev main_v418 : Ref sig .tc := ⟨.hbm, 442, rfl⟩
abbrev main_v419 : Ref sig .tc := ⟨.hbm, 443, rfl⟩
abbrev main_v420 : Ref sig .tc := ⟨.hbm, 444, rfl⟩
abbrev main_v421 : Ref sig .tc := ⟨.hbm, 445, rfl⟩
abbrev main_v422 : Ref sig .tc := ⟨.hbm, 446, rfl⟩
abbrev main_v423 : Ref sig .tc := ⟨.hbm, 447, rfl⟩
abbrev main_v424 : Ref sig .tc := ⟨.hbm, 448, rfl⟩
abbrev main_v425 : Ref sig .tc := ⟨.hbm, 449, rfl⟩
abbrev main_v426 : Ref sig .tc := ⟨.hbm, 450, rfl⟩
abbrev main_v427 : Ref sig .tc := ⟨.hbm, 451, rfl⟩
abbrev main_v428 : Ref sig .tc := ⟨.hbm, 452, rfl⟩
abbrev main_v429 : Ref sig .tc := ⟨.hbm, 453, rfl⟩
abbrev main_v430 : Ref sig .tc := ⟨.hbm, 454, rfl⟩
abbrev main_v431 : Ref sig .tc := ⟨.hbm, 455, rfl⟩
abbrev main_v432 : Ref sig .tc := ⟨.hbm, 456, rfl⟩
abbrev main_v433 : Ref sig .tc := ⟨.hbm, 457, rfl⟩
abbrev main_v434 : Ref sig .tc := ⟨.hbm, 458, rfl⟩
abbrev main_v435 : Ref sig .tc := ⟨.hbm, 459, rfl⟩
abbrev main_v436 : Ref sig .tc := ⟨.hbm, 460, rfl⟩
abbrev main_v437 : Ref sig .tc := ⟨.hbm, 461, rfl⟩
abbrev main_v438 : Ref sig .tc := ⟨.hbm, 462, rfl⟩
abbrev main_v439 : Ref sig .tc := ⟨.hbm, 463, rfl⟩
abbrev main_v440 : Ref sig .tc := ⟨.hbm, 464, rfl⟩
abbrev main_v441 : Ref sig .tc := ⟨.hbm, 465, rfl⟩
abbrev main_v442 : Ref sig .tc := ⟨.hbm, 466, rfl⟩
abbrev main_v443 : Ref sig .tc := ⟨.hbm, 467, rfl⟩
abbrev main_v444 : Ref sig .tc := ⟨.hbm, 468, rfl⟩
abbrev main_v445 : Ref sig .tc := ⟨.hbm, 469, rfl⟩
abbrev main_v446 : Ref sig .tc := ⟨.hbm, 470, rfl⟩
abbrev main_v447 : Ref sig .tc := ⟨.hbm, 471, rfl⟩
abbrev main_v448 : Ref sig .tc := ⟨.hbm, 472, rfl⟩
abbrev main_v449 : Ref sig .tc := ⟨.hbm, 473, rfl⟩
abbrev main_v450 : Ref sig .tc := ⟨.hbm, 474, rfl⟩
abbrev main_v451 : Ref sig .tc := ⟨.hbm, 475, rfl⟩
abbrev main_v452 : Ref sig .tc := ⟨.hbm, 476, rfl⟩
abbrev main_v453 : Ref sig .tc := ⟨.hbm, 477, rfl⟩
abbrev main_v454 : Ref sig .tc := ⟨.hbm, 478, rfl⟩
abbrev main_v455 : Ref sig .tc := ⟨.hbm, 479, rfl⟩
abbrev main_v456 : Ref sig .tc := ⟨.hbm, 480, rfl⟩
abbrev main_v457 : Ref sig .tc := ⟨.hbm, 481, rfl⟩
abbrev main_v458 : Ref sig .tc := ⟨.hbm, 482, rfl⟩
abbrev main_v459 : Ref sig .tc := ⟨.hbm, 483, rfl⟩
abbrev main_v460 : Ref sig .tc := ⟨.hbm, 484, rfl⟩
abbrev main_v461 : Ref sig .tc := ⟨.hbm, 485, rfl⟩
abbrev main_v462 : Ref sig .tc := ⟨.hbm, 486, rfl⟩
abbrev main_v463 : Ref sig .tc := ⟨.hbm, 487, rfl⟩
abbrev main_v464 : Ref sig .tc := ⟨.hbm, 488, rfl⟩
abbrev main_v465 : Ref sig .tc := ⟨.hbm, 489, rfl⟩
abbrev main_v466 : Ref sig .tc := ⟨.hbm, 490, rfl⟩
abbrev main_v467 : Ref sig .tc := ⟨.hbm, 491, rfl⟩
abbrev main_v468 : Ref sig .tc := ⟨.hbm, 492, rfl⟩
abbrev main_v469 : Ref sig .tc := ⟨.hbm, 493, rfl⟩
abbrev main_v470 : Ref sig .tc := ⟨.hbm, 494, rfl⟩
abbrev main_v471 : Ref sig .tc := ⟨.hbm, 495, rfl⟩
abbrev main_v472 : Ref sig .tc := ⟨.hbm, 496, rfl⟩
abbrev main_v473 : Ref sig .tc := ⟨.hbm, 497, rfl⟩
abbrev main_v474 : Ref sig .tc := ⟨.hbm, 498, rfl⟩
abbrev main_v475 : Ref sig .tc := ⟨.hbm, 499, rfl⟩
abbrev main_v476 : Ref sig .tc := ⟨.hbm, 500, rfl⟩
abbrev main_v477 : Ref sig .tc := ⟨.hbm, 501, rfl⟩
abbrev main_v478 : Ref sig .tc := ⟨.hbm, 502, rfl⟩
abbrev main_v479 : Ref sig .tc := ⟨.hbm, 503, rfl⟩
abbrev main_v480 : Ref sig .tc := ⟨.hbm, 504, rfl⟩
abbrev main_v481 : Ref sig .tc := ⟨.hbm, 505, rfl⟩
abbrev main_v482 : Ref sig .tc := ⟨.hbm, 506, rfl⟩
abbrev main_v483 : Ref sig .tc := ⟨.hbm, 507, rfl⟩
abbrev main_v484 : Ref sig .tc := ⟨.hbm, 508, rfl⟩
abbrev main_v485 : Ref sig .tc := ⟨.hbm, 509, rfl⟩
abbrev main_v486 : Ref sig .tc := ⟨.hbm, 510, rfl⟩
abbrev main_v487 : Ref sig .tc := ⟨.hbm, 511, rfl⟩
abbrev main_v488 : Ref sig .tc := ⟨.hbm, 512, rfl⟩
abbrev main_v489 : Ref sig .tc := ⟨.hbm, 513, rfl⟩
abbrev main_v490 : Ref sig .tc := ⟨.hbm, 514, rfl⟩
abbrev main_v491 : Ref sig .tc := ⟨.hbm, 515, rfl⟩
abbrev main_v492 : Ref sig .tc := ⟨.hbm, 516, rfl⟩
abbrev main_v493 : Ref sig .tc := ⟨.hbm, 517, rfl⟩
abbrev main_v494 : Ref sig .tc := ⟨.hbm, 518, rfl⟩
abbrev main_v495 : Ref sig .tc := ⟨.hbm, 519, rfl⟩
abbrev main_v496 : Ref sig .tc := ⟨.hbm, 520, rfl⟩
abbrev main_v497 : Ref sig .tc := ⟨.hbm, 521, rfl⟩
abbrev main_v498 : Ref sig .tc := ⟨.hbm, 522, rfl⟩
abbrev main_v499 : Ref sig .tc := ⟨.hbm, 523, rfl⟩
abbrev main_v500 : Ref sig .tc := ⟨.hbm, 524, rfl⟩
abbrev main_v501 : Ref sig .tc := ⟨.hbm, 525, rfl⟩
abbrev main_v502 : Ref sig .tc := ⟨.hbm, 526, rfl⟩
abbrev main_v503 : Ref sig .tc := ⟨.hbm, 527, rfl⟩
abbrev main_v504 : Ref sig .tc := ⟨.hbm, 528, rfl⟩
abbrev main_v505 : Ref sig .tc := ⟨.hbm, 529, rfl⟩
abbrev main_v506 : Ref sig .tc := ⟨.hbm, 530, rfl⟩
abbrev main_v507 : Ref sig .tc := ⟨.hbm, 531, rfl⟩
abbrev main_v508 : Ref sig .tc := ⟨.hbm, 532, rfl⟩
abbrev main_v509 : Ref sig .tc := ⟨.hbm, 533, rfl⟩
abbrev main_v510 : Ref sig .tc := ⟨.hbm, 534, rfl⟩
abbrev main_v511 : Ref sig .tc := ⟨.hbm, 535, rfl⟩
abbrev main_v512 : Ref sig .tc := ⟨.hbm, 536, rfl⟩
abbrev main_v513 : Ref sig .tc := ⟨.hbm, 537, rfl⟩
abbrev main_v514 : Ref sig .tc := ⟨.hbm, 538, rfl⟩
abbrev main_v515 : Ref sig .tc := ⟨.hbm, 539, rfl⟩
abbrev main_v516 : Ref sig .tc := ⟨.hbm, 540, rfl⟩
abbrev main_v517 : Ref sig .tc := ⟨.hbm, 541, rfl⟩
abbrev main_v518 : Ref sig .tc := ⟨.hbm, 542, rfl⟩
abbrev main_v519 : Ref sig .tc := ⟨.hbm, 543, rfl⟩
abbrev main_v520 : Ref sig .tc := ⟨.hbm, 544, rfl⟩
abbrev main_v521 : Ref sig .tc := ⟨.hbm, 545, rfl⟩
abbrev main_v522 : Ref sig .tc := ⟨.hbm, 546, rfl⟩
abbrev main_v523 : Ref sig .tc := ⟨.hbm, 547, rfl⟩
abbrev main_v524 : Ref sig .tc := ⟨.hbm, 548, rfl⟩
abbrev main_v525 : Ref sig .tc := ⟨.hbm, 549, rfl⟩
abbrev main_v526 : Ref sig .tc := ⟨.hbm, 550, rfl⟩
abbrev main_v527 : Ref sig .tc := ⟨.hbm, 551, rfl⟩
abbrev main_v528 : Ref sig .tc := ⟨.hbm, 552, rfl⟩
abbrev main_v529 : Ref sig .tc := ⟨.hbm, 553, rfl⟩
abbrev main_v530 : Ref sig .tc := ⟨.hbm, 554, rfl⟩
abbrev main_v531 : Ref sig .tc := ⟨.hbm, 555, rfl⟩
abbrev main_v532 : Ref sig .tc := ⟨.hbm, 556, rfl⟩
abbrev main_v533 : Ref sig .tc := ⟨.hbm, 557, rfl⟩
abbrev main_v534 : Ref sig .tc := ⟨.hbm, 558, rfl⟩
abbrev main_v535 : Ref sig .tc := ⟨.hbm, 559, rfl⟩
abbrev main_v536 : Ref sig .tc := ⟨.hbm, 560, rfl⟩
abbrev main_v537 : Ref sig .tc := ⟨.hbm, 561, rfl⟩
abbrev main_v538 : Ref sig .tc := ⟨.hbm, 562, rfl⟩
abbrev main_v539 : Ref sig .tc := ⟨.hbm, 563, rfl⟩
abbrev main_v540 : Ref sig .tc := ⟨.hbm, 564, rfl⟩
abbrev main_v541 : Ref sig .tc := ⟨.hbm, 565, rfl⟩
abbrev main_v542 : Ref sig .tc := ⟨.hbm, 566, rfl⟩
abbrev main_v543 : Ref sig .tc := ⟨.hbm, 567, rfl⟩
abbrev main_v544 : Ref sig .tc := ⟨.hbm, 568, rfl⟩
abbrev main_v545 : Ref sig .tc := ⟨.hbm, 569, rfl⟩
abbrev main_v546 : Ref sig .tc := ⟨.hbm, 570, rfl⟩
abbrev main_v547 : Ref sig .tc := ⟨.hbm, 571, rfl⟩
abbrev main_v548 : Ref sig .tc := ⟨.hbm, 572, rfl⟩
abbrev main_v549 : Ref sig .tc := ⟨.hbm, 573, rfl⟩
abbrev main_v550 : Ref sig .tc := ⟨.hbm, 574, rfl⟩
abbrev main_v551 : Ref sig .tc := ⟨.hbm, 575, rfl⟩
abbrev main_v552 : Ref sig .tc := ⟨.hbm, 576, rfl⟩
abbrev main_v553 : Ref sig .tc := ⟨.hbm, 577, rfl⟩
abbrev main_v554 : Ref sig .tc := ⟨.hbm, 578, rfl⟩
abbrev main_v555 : Ref sig .tc := ⟨.hbm, 579, rfl⟩
abbrev main_v556 : Ref sig .tc := ⟨.hbm, 580, rfl⟩
abbrev main_v557 : Ref sig .tc := ⟨.hbm, 581, rfl⟩
abbrev main_v558 : Ref sig .tc := ⟨.hbm, 582, rfl⟩
abbrev main_v559 : Ref sig .tc := ⟨.hbm, 583, rfl⟩
abbrev main_v560 : Ref sig .tc := ⟨.hbm, 584, rfl⟩
abbrev main_v561 : Ref sig .tc := ⟨.hbm, 585, rfl⟩
abbrev main_v562 : Ref sig .tc := ⟨.hbm, 586, rfl⟩
abbrev main_v563 : Ref sig .tc := ⟨.hbm, 587, rfl⟩
abbrev main_v564 : Ref sig .tc := ⟨.hbm, 588, rfl⟩
abbrev main_v565 : Ref sig .tc := ⟨.hbm, 589, rfl⟩
abbrev main_v566 : Ref sig .tc := ⟨.hbm, 590, rfl⟩
abbrev main_v567 : Ref sig .tc := ⟨.hbm, 591, rfl⟩
abbrev main_v568 : Ref sig .tc := ⟨.hbm, 592, rfl⟩
abbrev main_v569 : Ref sig .tc := ⟨.hbm, 593, rfl⟩
abbrev main_v570 : Ref sig .tc := ⟨.hbm, 594, rfl⟩
abbrev main_v571 : Ref sig .tc := ⟨.hbm, 595, rfl⟩
abbrev main_v572 : Ref sig .tc := ⟨.hbm, 596, rfl⟩
abbrev main_v573 : Ref sig .tc := ⟨.hbm, 597, rfl⟩
abbrev main_v574 : Ref sig .tc := ⟨.hbm, 598, rfl⟩
abbrev main_v575 : Ref sig .tc := ⟨.hbm, 599, rfl⟩
abbrev main_v576 : Ref sig .tc := ⟨.hbm, 600, rfl⟩
abbrev main_v577 : Ref sig .tc := ⟨.hbm, 601, rfl⟩
abbrev main_v578 : Ref sig .tc := ⟨.hbm, 602, rfl⟩
abbrev main_v579 : Ref sig .tc := ⟨.hbm, 603, rfl⟩
abbrev main_v580 : Ref sig .tc := ⟨.hbm, 604, rfl⟩
abbrev main_v581 : Ref sig .tc := ⟨.hbm, 605, rfl⟩
abbrev main_v582 : Ref sig .tc := ⟨.hbm, 606, rfl⟩
abbrev main_v583 : Ref sig .tc := ⟨.hbm, 607, rfl⟩
abbrev main_v584 : Ref sig .tc := ⟨.hbm, 608, rfl⟩
abbrev main_v585 : Ref sig .tc := ⟨.hbm, 609, rfl⟩
abbrev main_v586 : Ref sig .tc := ⟨.hbm, 610, rfl⟩
abbrev main_v587 : Ref sig .tc := ⟨.hbm, 611, rfl⟩
abbrev main_v588 : Ref sig .tc := ⟨.hbm, 612, rfl⟩
abbrev main_v589 : Ref sig .tc := ⟨.hbm, 613, rfl⟩
abbrev main_v590 : Ref sig .tc := ⟨.hbm, 614, rfl⟩
abbrev main_v591 : Ref sig .tc := ⟨.hbm, 615, rfl⟩
abbrev main_v592 : Ref sig .tc := ⟨.hbm, 616, rfl⟩
abbrev main_v593 : Ref sig .tc := ⟨.hbm, 617, rfl⟩
abbrev main_v594 : Ref sig .tc := ⟨.hbm, 618, rfl⟩
abbrev main_v595 : Ref sig .tc := ⟨.hbm, 619, rfl⟩
abbrev main_v596 : Ref sig .tc := ⟨.hbm, 620, rfl⟩
abbrev main_v597 : Ref sig .tc := ⟨.hbm, 621, rfl⟩
abbrev main_v598 : Ref sig .tc := ⟨.hbm, 622, rfl⟩
abbrev main_v599 : Ref sig .tc := ⟨.hbm, 623, rfl⟩
abbrev main_v600 : Ref sig .tc := ⟨.hbm, 624, rfl⟩
abbrev main_v601 : Ref sig .tc := ⟨.hbm, 625, rfl⟩
abbrev main_v602 : Ref sig .tc := ⟨.hbm, 626, rfl⟩
abbrev main_v603 : Ref sig .tc := ⟨.hbm, 627, rfl⟩
abbrev main_v604 : Ref sig .tc := ⟨.hbm, 628, rfl⟩
abbrev main_v605 : Ref sig .tc := ⟨.hbm, 629, rfl⟩
abbrev main_v606 : Ref sig .tc := ⟨.hbm, 630, rfl⟩
abbrev main_v607 : Ref sig .tc := ⟨.hbm, 631, rfl⟩
abbrev main_v608 : Ref sig .tc := ⟨.hbm, 632, rfl⟩
abbrev main_v609 : Ref sig .tc := ⟨.hbm, 633, rfl⟩
abbrev main_v610 : Ref sig .tc := ⟨.hbm, 634, rfl⟩
abbrev main_v611 : Ref sig .tc := ⟨.hbm, 635, rfl⟩
abbrev main_v612 : Ref sig .tc := ⟨.hbm, 636, rfl⟩
abbrev main_v613 : Ref sig .tc := ⟨.hbm, 637, rfl⟩
abbrev main_v614 : Ref sig .tc := ⟨.hbm, 638, rfl⟩
abbrev main_v615 : Ref sig .tc := ⟨.hbm, 639, rfl⟩
abbrev main_v616 : Ref sig .tc := ⟨.hbm, 640, rfl⟩
abbrev main_v617 : Ref sig .tc := ⟨.hbm, 641, rfl⟩
abbrev main_v618 : Ref sig .tc := ⟨.hbm, 642, rfl⟩
abbrev main_v619 : Ref sig .tc := ⟨.hbm, 643, rfl⟩
abbrev main_v620 : Ref sig .tc := ⟨.hbm, 644, rfl⟩
abbrev main_v621 : Ref sig .tc := ⟨.hbm, 645, rfl⟩
abbrev main_v622 : Ref sig .tc := ⟨.hbm, 646, rfl⟩
abbrev main_v623 : Ref sig .tc := ⟨.hbm, 647, rfl⟩
abbrev main_v624 : Ref sig .tc := ⟨.hbm, 648, rfl⟩
abbrev main_v625 : Ref sig .tc := ⟨.hbm, 649, rfl⟩
abbrev main_v626 : Ref sig .tc := ⟨.hbm, 650, rfl⟩
abbrev main_v627 : Ref sig .tc := ⟨.hbm, 651, rfl⟩
abbrev main_v628 : Ref sig .tc := ⟨.hbm, 652, rfl⟩
abbrev main_v629 : Ref sig .tc := ⟨.hbm, 653, rfl⟩
abbrev main_v630 : Ref sig .tc := ⟨.hbm, 654, rfl⟩
abbrev main_v631 : Ref sig .tc := ⟨.hbm, 655, rfl⟩
abbrev main_v632 : Ref sig .tc := ⟨.hbm, 656, rfl⟩
abbrev main_v633 : Ref sig .tc := ⟨.hbm, 657, rfl⟩
abbrev main_v634 : Ref sig .tc := ⟨.hbm, 658, rfl⟩
abbrev main_v635 : Ref sig .tc := ⟨.hbm, 659, rfl⟩
abbrev main_v636 : Ref sig .tc := ⟨.hbm, 660, rfl⟩
abbrev main_v637 : Ref sig .tc := ⟨.hbm, 661, rfl⟩
abbrev main_v638 : Ref sig .tc := ⟨.hbm, 662, rfl⟩
abbrev main_v639 : Ref sig .tc := ⟨.hbm, 663, rfl⟩
abbrev main_v640 : Ref sig .tc := ⟨.hbm, 664, rfl⟩
abbrev main_v641 : Ref sig .tc := ⟨.hbm, 665, rfl⟩
abbrev main_v642 : Ref sig .tc := ⟨.hbm, 666, rfl⟩
abbrev main_v643 : Ref sig .tc := ⟨.hbm, 667, rfl⟩
abbrev main_v644 : Ref sig .tc := ⟨.hbm, 668, rfl⟩
abbrev main_v645 : Ref sig .tc := ⟨.hbm, 669, rfl⟩
abbrev main_v646 : Ref sig .tc := ⟨.hbm, 670, rfl⟩
abbrev main_v647 : Ref sig .tc := ⟨.hbm, 671, rfl⟩
abbrev main_v648 : Ref sig .tc := ⟨.hbm, 672, rfl⟩
abbrev main_v649 : Ref sig .tc := ⟨.hbm, 673, rfl⟩
abbrev main_v650 : Ref sig .tc := ⟨.hbm, 674, rfl⟩
abbrev main_v651 : Ref sig .tc := ⟨.hbm, 675, rfl⟩
abbrev main_v652 : Ref sig .tc := ⟨.hbm, 676, rfl⟩
abbrev main_v653 : Ref sig .tc := ⟨.hbm, 677, rfl⟩
abbrev main_v654 : Ref sig .tc := ⟨.hbm, 678, rfl⟩
abbrev main_v655 : Ref sig .tc := ⟨.hbm, 679, rfl⟩
abbrev main_v656 : Ref sig .tc := ⟨.hbm, 680, rfl⟩
abbrev main_v657 : Ref sig .tc := ⟨.hbm, 681, rfl⟩
abbrev main_v658 : Ref sig .tc := ⟨.hbm, 682, rfl⟩
abbrev main_v659 : Ref sig .tc := ⟨.hbm, 683, rfl⟩
abbrev main_v660 : Ref sig .tc := ⟨.hbm, 684, rfl⟩
abbrev main_v661 : Ref sig .tc := ⟨.hbm, 685, rfl⟩
abbrev main_v662 : Ref sig .tc := ⟨.hbm, 686, rfl⟩
abbrev main_v663 : Ref sig .tc := ⟨.hbm, 687, rfl⟩
abbrev main_v664 : Ref sig .tc := ⟨.hbm, 688, rfl⟩
abbrev main_v665 : Ref sig .tc := ⟨.hbm, 689, rfl⟩
abbrev main_v666 : Ref sig .tc := ⟨.hbm, 690, rfl⟩
abbrev main_v667 : Ref sig .tc := ⟨.hbm, 691, rfl⟩
abbrev main_v668 : Ref sig .tc := ⟨.hbm, 692, rfl⟩
abbrev main_v669 : Ref sig .tc := ⟨.hbm, 693, rfl⟩
abbrev main_v670 : Ref sig .tc := ⟨.hbm, 694, rfl⟩
abbrev main_v671 : Ref sig .tc := ⟨.hbm, 695, rfl⟩
abbrev main_v672 : Ref sig .tc := ⟨.hbm, 696, rfl⟩
abbrev main_v673 : Ref sig .tc := ⟨.hbm, 697, rfl⟩
abbrev main_v674 : Ref sig .tc := ⟨.hbm, 698, rfl⟩
abbrev main_v675 : Ref sig .tc := ⟨.hbm, 699, rfl⟩
abbrev main_v676 : Ref sig .tc := ⟨.hbm, 700, rfl⟩
abbrev main_v677 : Ref sig .tc := ⟨.hbm, 701, rfl⟩
abbrev main_v678 : Ref sig .tc := ⟨.hbm, 702, rfl⟩
abbrev main_v679 : Ref sig .tc := ⟨.hbm, 703, rfl⟩
abbrev main_v680 : Ref sig .tc := ⟨.hbm, 704, rfl⟩
abbrev main_v681 : Ref sig .tc := ⟨.hbm, 705, rfl⟩
abbrev main_v682 : Ref sig .tc := ⟨.hbm, 706, rfl⟩
abbrev main_v683 : Ref sig .tc := ⟨.hbm, 707, rfl⟩
abbrev main_v684 : Ref sig .tc := ⟨.hbm, 708, rfl⟩
abbrev main_v685 : Ref sig .tc := ⟨.hbm, 709, rfl⟩
abbrev main_v686 : Ref sig .tc := ⟨.hbm, 710, rfl⟩
abbrev main_v687 : Ref sig .tc := ⟨.hbm, 711, rfl⟩
abbrev main_v688 : Ref sig .tc := ⟨.hbm, 712, rfl⟩
abbrev main_v689 : Ref sig .tc := ⟨.hbm, 713, rfl⟩
abbrev main_v690 : Ref sig .tc := ⟨.hbm, 714, rfl⟩
abbrev main_v691 : Ref sig .tc := ⟨.hbm, 715, rfl⟩
abbrev main_v692 : Ref sig .tc := ⟨.hbm, 716, rfl⟩
abbrev main_v693 : Ref sig .tc := ⟨.hbm, 717, rfl⟩
abbrev main_v694 : Ref sig .tc := ⟨.hbm, 718, rfl⟩
abbrev main_v695 : Ref sig .tc := ⟨.hbm, 719, rfl⟩
abbrev main_v696 : Ref sig .tc := ⟨.hbm, 720, rfl⟩
abbrev main_v697 : Ref sig .tc := ⟨.hbm, 721, rfl⟩
abbrev main_v698 : Ref sig .tc := ⟨.hbm, 722, rfl⟩
abbrev main_v699 : Ref sig .tc := ⟨.hbm, 723, rfl⟩
abbrev main_v700 : Ref sig .tc := ⟨.hbm, 724, rfl⟩
abbrev main_v701 : Ref sig .tc := ⟨.hbm, 725, rfl⟩
abbrev main_v702 : Ref sig .tc := ⟨.hbm, 726, rfl⟩
abbrev main_v703 : Ref sig .tc := ⟨.hbm, 727, rfl⟩
abbrev main_v704 : Ref sig .tc := ⟨.hbm, 728, rfl⟩
abbrev main_v705 : Ref sig .tc := ⟨.hbm, 729, rfl⟩
abbrev main_v706 : Ref sig .tc := ⟨.hbm, 730, rfl⟩
abbrev main_v707 : Ref sig .tc := ⟨.hbm, 731, rfl⟩
abbrev main_v708 : Ref sig .tc := ⟨.hbm, 732, rfl⟩
abbrev main_v709 : Ref sig .tc := ⟨.hbm, 733, rfl⟩
abbrev main_v710 : Ref sig .tc := ⟨.hbm, 734, rfl⟩
abbrev main_v711 : Ref sig .tc := ⟨.hbm, 735, rfl⟩
abbrev main_v712 : Ref sig .tc := ⟨.hbm, 736, rfl⟩
abbrev main_v713 : Ref sig .tc := ⟨.hbm, 737, rfl⟩
abbrev main_v714 : Ref sig .tc := ⟨.hbm, 738, rfl⟩
abbrev main_v715 : Ref sig .tc := ⟨.hbm, 739, rfl⟩
abbrev main_v716 : Ref sig .tc := ⟨.hbm, 740, rfl⟩
abbrev main_v717 : Ref sig .tc := ⟨.hbm, 741, rfl⟩
abbrev main_v718 : Ref sig .tc := ⟨.hbm, 742, rfl⟩
abbrev main_v719 : Ref sig .tc := ⟨.hbm, 743, rfl⟩
abbrev main_v720 : Ref sig .tc := ⟨.hbm, 744, rfl⟩
abbrev main_v721 : Ref sig .tc := ⟨.hbm, 745, rfl⟩
abbrev main_v722 : Ref sig .tc := ⟨.hbm, 746, rfl⟩
abbrev main_v723 : Ref sig .tc := ⟨.hbm, 747, rfl⟩
abbrev main_v724 : Ref sig .tc := ⟨.hbm, 748, rfl⟩
abbrev main_v725 : Ref sig .tc := ⟨.hbm, 749, rfl⟩
abbrev main_v726 : Ref sig .tc := ⟨.hbm, 750, rfl⟩
abbrev main_v727 : Ref sig .tc := ⟨.hbm, 751, rfl⟩
abbrev main_v728 : Ref sig .tc := ⟨.hbm, 752, rfl⟩
abbrev main_v729 : Ref sig .tc := ⟨.hbm, 753, rfl⟩
abbrev main_v730 : Ref sig .tc := ⟨.hbm, 754, rfl⟩
abbrev main_v731 : Ref sig .tc := ⟨.hbm, 755, rfl⟩
abbrev main_v732 : Ref sig .tc := ⟨.hbm, 756, rfl⟩
abbrev main_v733 : Ref sig .tc := ⟨.hbm, 757, rfl⟩
abbrev main_v734 : Ref sig .tc := ⟨.hbm, 758, rfl⟩
abbrev main_v735 : Ref sig .tc := ⟨.hbm, 759, rfl⟩
abbrev main_v736 : Ref sig .tc := ⟨.hbm, 760, rfl⟩
abbrev main_v737 : Ref sig .tc := ⟨.hbm, 761, rfl⟩
abbrev main_v738 : Ref sig .tc := ⟨.hbm, 762, rfl⟩
abbrev main_v739 : Ref sig .tc := ⟨.hbm, 763, rfl⟩
abbrev main_v740 : Ref sig .tc := ⟨.hbm, 764, rfl⟩
abbrev main_v741 : Ref sig .tc := ⟨.hbm, 765, rfl⟩
abbrev main_v742 : Ref sig .tc := ⟨.hbm, 766, rfl⟩
abbrev main_v743 : Ref sig .tc := ⟨.hbm, 767, rfl⟩
abbrev main_v744 : Ref sig .tc := ⟨.hbm, 768, rfl⟩
abbrev main_v745 : Ref sig .tc := ⟨.hbm, 769, rfl⟩
abbrev main_v746 : Ref sig .tc := ⟨.hbm, 770, rfl⟩
abbrev main_v747 : Ref sig .tc := ⟨.hbm, 771, rfl⟩
abbrev main_v748 : Ref sig .tc := ⟨.hbm, 772, rfl⟩
abbrev main_v749 : Ref sig .tc := ⟨.hbm, 773, rfl⟩
abbrev main_v750 : Ref sig .tc := ⟨.hbm, 774, rfl⟩
abbrev main_v751 : Ref sig .tc := ⟨.hbm, 775, rfl⟩
abbrev main_v752 : Ref sig .tc := ⟨.hbm, 776, rfl⟩
abbrev main_v753 : Ref sig .tc := ⟨.hbm, 777, rfl⟩
abbrev main_v754 : Ref sig .tc := ⟨.hbm, 778, rfl⟩
abbrev main_v755 : Ref sig .tc := ⟨.hbm, 779, rfl⟩
abbrev main_v756 : Ref sig .tc := ⟨.hbm, 780, rfl⟩
abbrev main_v757 : Ref sig .tc := ⟨.hbm, 781, rfl⟩
abbrev main_v758 : Ref sig .tc := ⟨.hbm, 782, rfl⟩
abbrev main_v759 : Ref sig .tc := ⟨.hbm, 783, rfl⟩
abbrev main_v760 : Ref sig .tc := ⟨.hbm, 784, rfl⟩
abbrev main_v761 : Ref sig .tc := ⟨.hbm, 785, rfl⟩
abbrev main_v762 : Ref sig .tc := ⟨.hbm, 786, rfl⟩
abbrev main_v763 : Ref sig .tc := ⟨.hbm, 787, rfl⟩
abbrev main_v764 : Ref sig .tc := ⟨.hbm, 788, rfl⟩
abbrev main_v765 : Ref sig .tc := ⟨.hbm, 789, rfl⟩
abbrev main_v766 : Ref sig .tc := ⟨.hbm, 790, rfl⟩
abbrev main_v767 : Ref sig .tc := ⟨.hbm, 791, rfl⟩
abbrev main_v768 : Ref sig .tc := ⟨.hbm, 792, rfl⟩
abbrev main_v769 : Ref sig .tc := ⟨.hbm, 793, rfl⟩
abbrev main_v770 : Ref sig .tc := ⟨.hbm, 794, rfl⟩
abbrev main_v771 : Ref sig .tc := ⟨.hbm, 795, rfl⟩
abbrev main_v772 : Ref sig .tc := ⟨.hbm, 796, rfl⟩
abbrev main_v773 : Ref sig .tc := ⟨.hbm, 797, rfl⟩
abbrev main_v774 : Ref sig .tc := ⟨.hbm, 798, rfl⟩
abbrev main_v775 : Ref sig .tc := ⟨.hbm, 799, rfl⟩
abbrev main_v776 : Ref sig .tc := ⟨.hbm, 800, rfl⟩
abbrev main_v777 : Ref sig .tc := ⟨.hbm, 801, rfl⟩
abbrev main_v778 : Ref sig .tc := ⟨.hbm, 802, rfl⟩
abbrev main_v779 : Ref sig .tc := ⟨.hbm, 803, rfl⟩
abbrev main_v780 : Ref sig .tc := ⟨.hbm, 804, rfl⟩
abbrev main_v781 : Ref sig .tc := ⟨.hbm, 805, rfl⟩
abbrev main_v782 : Ref sig .tc := ⟨.hbm, 806, rfl⟩
abbrev main_v783 : Ref sig .tc := ⟨.hbm, 807, rfl⟩
abbrev main_v784 : Ref sig .tc := ⟨.hbm, 808, rfl⟩
abbrev main_v785 : Ref sig .tc := ⟨.hbm, 809, rfl⟩
abbrev main_v786 : Ref sig .tc := ⟨.hbm, 810, rfl⟩
abbrev main_v787 : Ref sig .tc := ⟨.hbm, 811, rfl⟩
abbrev main_v788 : Ref sig .tc := ⟨.hbm, 812, rfl⟩
abbrev main_v789 : Ref sig .tc := ⟨.hbm, 813, rfl⟩
abbrev main_v790 : Ref sig .tc := ⟨.hbm, 814, rfl⟩
abbrev main_v791 : Ref sig .tc := ⟨.hbm, 815, rfl⟩
abbrev main_v792 : Ref sig .tc := ⟨.hbm, 816, rfl⟩
abbrev main_v793 : Ref sig .tc := ⟨.hbm, 817, rfl⟩
abbrev main_v794 : Ref sig .tc := ⟨.hbm, 818, rfl⟩
abbrev main_v795 : Ref sig .tc := ⟨.hbm, 819, rfl⟩
abbrev main_v796 : Ref sig .tc := ⟨.hbm, 820, rfl⟩
abbrev main_v797 : Ref sig .tc := ⟨.hbm, 821, rfl⟩
abbrev main_v798 : Ref sig .tc := ⟨.hbm, 822, rfl⟩
abbrev main_v799 : Ref sig .tc := ⟨.hbm, 823, rfl⟩
abbrev main_v800 : Ref sig .tc := ⟨.hbm, 824, rfl⟩
abbrev main_v801 : Ref sig .tc := ⟨.hbm, 825, rfl⟩
abbrev main_v802 : Ref sig .tc := ⟨.hbm, 826, rfl⟩
abbrev main_v803 : Ref sig .tc := ⟨.hbm, 827, rfl⟩
abbrev main_v804 : Ref sig .tc := ⟨.hbm, 828, rfl⟩
abbrev main_v805 : Ref sig .tc := ⟨.hbm, 829, rfl⟩
abbrev main_v806 : Ref sig .tc := ⟨.hbm, 830, rfl⟩
abbrev main_v807 : Ref sig .tc := ⟨.hbm, 831, rfl⟩
abbrev main_v808 : Ref sig .tc := ⟨.hbm, 832, rfl⟩
abbrev main_v809 : Ref sig .tc := ⟨.hbm, 833, rfl⟩
abbrev main_v810 : Ref sig .tc := ⟨.hbm, 834, rfl⟩
abbrev main_v811 : Ref sig .tc := ⟨.hbm, 835, rfl⟩
abbrev main_v812 : Ref sig .tc := ⟨.hbm, 836, rfl⟩
abbrev main_v813 : Ref sig .tc := ⟨.hbm, 837, rfl⟩
abbrev main_v814 : Ref sig .tc := ⟨.hbm, 838, rfl⟩
abbrev main_v815 : Ref sig .tc := ⟨.hbm, 839, rfl⟩
abbrev main_v816 : Ref sig .tc := ⟨.hbm, 840, rfl⟩
abbrev main_v817 : Ref sig .tc := ⟨.hbm, 841, rfl⟩
abbrev main_v818 : Ref sig .tc := ⟨.hbm, 842, rfl⟩
abbrev main_v819 : Ref sig .tc := ⟨.hbm, 843, rfl⟩
abbrev main_v820 : Ref sig .tc := ⟨.hbm, 844, rfl⟩
abbrev main_v821 : Ref sig .tc := ⟨.hbm, 845, rfl⟩
abbrev main_v822 : Ref sig .tc := ⟨.hbm, 846, rfl⟩
abbrev main_v823 : Ref sig .tc := ⟨.hbm, 847, rfl⟩
abbrev main_v824 : Ref sig .tc := ⟨.hbm, 848, rfl⟩
abbrev main_v825 : Ref sig .tc := ⟨.hbm, 849, rfl⟩
abbrev main_v826 : Ref sig .tc := ⟨.hbm, 850, rfl⟩
abbrev main_v827 : Ref sig .tc := ⟨.hbm, 851, rfl⟩
abbrev main_v828 : Ref sig .tc := ⟨.hbm, 852, rfl⟩
abbrev main_v829 : Ref sig .tc := ⟨.hbm, 853, rfl⟩
abbrev main_v830 : Ref sig .tc := ⟨.hbm, 854, rfl⟩
abbrev main_v831 : Ref sig .tc := ⟨.hbm, 855, rfl⟩
abbrev main_v832 : Ref sig .tc := ⟨.hbm, 856, rfl⟩
abbrev main_v833 : Ref sig .tc := ⟨.hbm, 857, rfl⟩
abbrev main_v834 : Ref sig .tc := ⟨.hbm, 858, rfl⟩
abbrev main_v835 : Ref sig .tc := ⟨.hbm, 859, rfl⟩
abbrev main_v836 : Ref sig .tc := ⟨.hbm, 860, rfl⟩
abbrev main_v837 : Ref sig .tc := ⟨.hbm, 861, rfl⟩
abbrev main_v838 : Ref sig .tc := ⟨.hbm, 862, rfl⟩
abbrev main_v839 : Ref sig .tc := ⟨.hbm, 863, rfl⟩
abbrev main_v840 : Ref sig .tc := ⟨.hbm, 864, rfl⟩
abbrev main_v841 : Ref sig .tc := ⟨.hbm, 865, rfl⟩
abbrev main_v842 : Ref sig .tc := ⟨.hbm, 866, rfl⟩
abbrev main_v843 : Ref sig .tc := ⟨.hbm, 867, rfl⟩
abbrev main_v844 : Ref sig .tc := ⟨.hbm, 868, rfl⟩
abbrev main_v845 : Ref sig .tc := ⟨.hbm, 869, rfl⟩
abbrev main_v846 : Ref sig .tc := ⟨.hbm, 870, rfl⟩
abbrev main_v847 : Ref sig .tc := ⟨.hbm, 871, rfl⟩
abbrev main_v848 : Ref sig .tc := ⟨.hbm, 872, rfl⟩
abbrev main_v849 : Ref sig .tc := ⟨.hbm, 873, rfl⟩
abbrev main_v850 : Ref sig .tc := ⟨.hbm, 874, rfl⟩
abbrev main_v851 : Ref sig .tc := ⟨.hbm, 875, rfl⟩
abbrev main_v852 : Ref sig .tc := ⟨.hbm, 876, rfl⟩
abbrev main_v853 : Ref sig .tc := ⟨.hbm, 877, rfl⟩
abbrev main_v854 : Ref sig .tc := ⟨.hbm, 878, rfl⟩
abbrev main_v855 : Ref sig .tc := ⟨.hbm, 879, rfl⟩
abbrev main_v856 : Ref sig .tc := ⟨.hbm, 880, rfl⟩
abbrev main_v857 : Ref sig .tc := ⟨.hbm, 881, rfl⟩
abbrev main_v858 : Ref sig .tc := ⟨.hbm, 882, rfl⟩
abbrev main_v859 : Ref sig .tc := ⟨.hbm, 883, rfl⟩
abbrev main_v860 : Ref sig .tc := ⟨.hbm, 884, rfl⟩
abbrev main_v861 : Ref sig .tc := ⟨.hbm, 885, rfl⟩
abbrev main_v862 : Ref sig .tc := ⟨.hbm, 886, rfl⟩
abbrev main_v863 : Ref sig .tc := ⟨.hbm, 887, rfl⟩
abbrev main_v864 : Ref sig .tc := ⟨.hbm, 888, rfl⟩
abbrev main_v865 : Ref sig .tc := ⟨.hbm, 889, rfl⟩
abbrev main_v866 : Ref sig .tc := ⟨.hbm, 890, rfl⟩
abbrev main_v867 : Ref sig .tc := ⟨.hbm, 891, rfl⟩
abbrev main_v868 : Ref sig .tc := ⟨.hbm, 892, rfl⟩
abbrev main_v869 : Ref sig .tc := ⟨.hbm, 893, rfl⟩
abbrev main_v870 : Ref sig .tc := ⟨.hbm, 894, rfl⟩
abbrev main_v871 : Ref sig .tc := ⟨.hbm, 895, rfl⟩
abbrev main_v872 : Ref sig .tc := ⟨.hbm, 896, rfl⟩
abbrev main_v873 : Ref sig .tc := ⟨.hbm, 897, rfl⟩
abbrev main_v874 : Ref sig .tc := ⟨.hbm, 898, rfl⟩
abbrev main_v875 : Ref sig .tc := ⟨.hbm, 899, rfl⟩
abbrev main_v876 : Ref sig .tc := ⟨.hbm, 900, rfl⟩
abbrev main_v877 : Ref sig .tc := ⟨.hbm, 901, rfl⟩
abbrev main_v878 : Ref sig .tc := ⟨.hbm, 902, rfl⟩
abbrev main_v879 : Ref sig .tc := ⟨.hbm, 903, rfl⟩
abbrev main_v880 : Ref sig .tc := ⟨.hbm, 904, rfl⟩
abbrev main_v881 : Ref sig .tc := ⟨.hbm, 905, rfl⟩
abbrev main_v882 : Ref sig .tc := ⟨.hbm, 906, rfl⟩
abbrev main_v883 : Ref sig .tc := ⟨.hbm, 907, rfl⟩
abbrev main_v884 : Ref sig .tc := ⟨.hbm, 908, rfl⟩
abbrev main_v885 : Ref sig .tc := ⟨.hbm, 909, rfl⟩
abbrev main_v886 : Ref sig .tc := ⟨.hbm, 910, rfl⟩
abbrev main_v887 : Ref sig .tc := ⟨.hbm, 911, rfl⟩
abbrev main_v888 : Ref sig .tc := ⟨.hbm, 912, rfl⟩
abbrev main_v889 : Ref sig .tc := ⟨.hbm, 913, rfl⟩
abbrev main_v890 : Ref sig .tc := ⟨.hbm, 914, rfl⟩
abbrev main_v891 : Ref sig .tc := ⟨.hbm, 915, rfl⟩
abbrev main_v892 : Ref sig .tc := ⟨.hbm, 916, rfl⟩
abbrev main_v893 : Ref sig .tc := ⟨.hbm, 917, rfl⟩
abbrev main_v894 : Ref sig .tc := ⟨.hbm, 918, rfl⟩
abbrev main_v895 : Ref sig .tc := ⟨.hbm, 919, rfl⟩
abbrev main_v896 : Ref sig .tc := ⟨.hbm, 920, rfl⟩
abbrev main_v897 : Ref sig .tc := ⟨.hbm, 921, rfl⟩
abbrev main_v898 : Ref sig .tc := ⟨.hbm, 922, rfl⟩
abbrev main_v899 : Ref sig .tc := ⟨.hbm, 923, rfl⟩
abbrev main_v900 : Ref sig .tc := ⟨.hbm, 924, rfl⟩
abbrev main_v901 : Ref sig .tc := ⟨.hbm, 925, rfl⟩
abbrev main_v902 : Ref sig .tc := ⟨.hbm, 926, rfl⟩
abbrev main_v903 : Ref sig .tc := ⟨.hbm, 927, rfl⟩
abbrev main_v904 : Ref sig .tc := ⟨.hbm, 928, rfl⟩
abbrev main_v905 : Ref sig .tc := ⟨.hbm, 929, rfl⟩
abbrev main_v906 : Ref sig .tc := ⟨.hbm, 930, rfl⟩
abbrev main_v907 : Ref sig .tc := ⟨.hbm, 931, rfl⟩
abbrev main_v908 : Ref sig .tc := ⟨.hbm, 932, rfl⟩
abbrev main_v909 : Ref sig .tc := ⟨.hbm, 933, rfl⟩
abbrev main_v910 : Ref sig .tc := ⟨.hbm, 934, rfl⟩
abbrev main_v911 : Ref sig .tc := ⟨.hbm, 935, rfl⟩
abbrev main_v912 : Ref sig .tc := ⟨.hbm, 936, rfl⟩
abbrev main_v913 : Ref sig .tc := ⟨.hbm, 937, rfl⟩
abbrev main_v914 : Ref sig .tc := ⟨.hbm, 938, rfl⟩
abbrev main_v915 : Ref sig .tc := ⟨.hbm, 939, rfl⟩
abbrev main_v916 : Ref sig .tc := ⟨.hbm, 940, rfl⟩
abbrev main_v917 : Ref sig .tc := ⟨.hbm, 941, rfl⟩
abbrev main_v918 : Ref sig .tc := ⟨.hbm, 942, rfl⟩
abbrev main_v919 : Ref sig .tc := ⟨.hbm, 943, rfl⟩
abbrev main_v920 : Ref sig .tc := ⟨.hbm, 944, rfl⟩
abbrev main_v921 : Ref sig .tc := ⟨.hbm, 945, rfl⟩
abbrev main_v922 : Ref sig .tc := ⟨.hbm, 946, rfl⟩
abbrev main_v923 : Ref sig .tc := ⟨.hbm, 947, rfl⟩
abbrev main_v924 : Ref sig .tc := ⟨.hbm, 948, rfl⟩
abbrev main_v925 : Ref sig .tc := ⟨.hbm, 949, rfl⟩
abbrev main_v926 : Ref sig .tc := ⟨.hbm, 950, rfl⟩
abbrev main_v927 : Ref sig .tc := ⟨.hbm, 951, rfl⟩
abbrev main_v928 : Ref sig .tc := ⟨.hbm, 952, rfl⟩
abbrev main_v929 : Ref sig .tc := ⟨.hbm, 953, rfl⟩
abbrev main_v930 : Ref sig .tc := ⟨.hbm, 954, rfl⟩
abbrev main_v931 : Ref sig .tc := ⟨.hbm, 955, rfl⟩
abbrev main_v932 : Ref sig .tc := ⟨.hbm, 956, rfl⟩
abbrev main_v933 : Ref sig .tc := ⟨.hbm, 957, rfl⟩
abbrev main_v934 : Ref sig .tc := ⟨.hbm, 958, rfl⟩
abbrev main_v935 : Ref sig .tc := ⟨.hbm, 959, rfl⟩
abbrev main_v936 : Ref sig .tc := ⟨.hbm, 960, rfl⟩
abbrev main_v937 : Ref sig .tc := ⟨.hbm, 961, rfl⟩
abbrev main_v938 : Ref sig .tc := ⟨.hbm, 962, rfl⟩
abbrev main_v939 : Ref sig .tc := ⟨.hbm, 963, rfl⟩
abbrev main_v940 : Ref sig .tc := ⟨.hbm, 964, rfl⟩
abbrev main_v941 : Ref sig .tc := ⟨.hbm, 965, rfl⟩
abbrev main_v942 : Ref sig .tc := ⟨.hbm, 966, rfl⟩
abbrev main_v943 : Ref sig .tc := ⟨.hbm, 967, rfl⟩
abbrev main_v944 : Ref sig .tc := ⟨.hbm, 968, rfl⟩
abbrev main_v945 : Ref sig .tc := ⟨.hbm, 969, rfl⟩
abbrev main_v946 : Ref sig .tc := ⟨.hbm, 970, rfl⟩
abbrev main_v947 : Ref sig .tc := ⟨.hbm, 971, rfl⟩
abbrev main_v948 : Ref sig .tc := ⟨.hbm, 972, rfl⟩
abbrev main_v949 : Ref sig .tc := ⟨.hbm, 973, rfl⟩
abbrev main_v950 : Ref sig .tc := ⟨.hbm, 974, rfl⟩
abbrev main_v951 : Ref sig .tc := ⟨.hbm, 975, rfl⟩
abbrev main_v952 : Ref sig .tc := ⟨.hbm, 976, rfl⟩
abbrev main_v953 : Ref sig .tc := ⟨.hbm, 977, rfl⟩
abbrev main_v954 : Ref sig .tc := ⟨.hbm, 978, rfl⟩
abbrev main_v955 : Ref sig .tc := ⟨.hbm, 979, rfl⟩
abbrev main_v956 : Ref sig .tc := ⟨.hbm, 980, rfl⟩
abbrev main_v957 : Ref sig .tc := ⟨.hbm, 981, rfl⟩
abbrev main_v958 : Ref sig .tc := ⟨.hbm, 982, rfl⟩
abbrev main_v959 : Ref sig .tc := ⟨.hbm, 983, rfl⟩
abbrev main_v960 : Ref sig .tc := ⟨.hbm, 984, rfl⟩
abbrev main_v961 : Ref sig .tc := ⟨.hbm, 985, rfl⟩
abbrev main_v962 : Ref sig .tc := ⟨.hbm, 986, rfl⟩
abbrev main_v963 : Ref sig .tc := ⟨.hbm, 987, rfl⟩
abbrev main_v964 : Ref sig .tc := ⟨.hbm, 988, rfl⟩
abbrev main_v965 : Ref sig .tc := ⟨.hbm, 989, rfl⟩
abbrev main_v966 : Ref sig .tc := ⟨.hbm, 990, rfl⟩
abbrev main_v967 : Ref sig .tc := ⟨.hbm, 991, rfl⟩
abbrev main_v968 : Ref sig .tc := ⟨.hbm, 992, rfl⟩
abbrev main_v969 : Ref sig .tc := ⟨.hbm, 993, rfl⟩
abbrev main_v970 : Ref sig .tc := ⟨.hbm, 994, rfl⟩
abbrev main_v971 : Ref sig .tc := ⟨.hbm, 995, rfl⟩
abbrev main_v972 : Ref sig .tc := ⟨.hbm, 996, rfl⟩
abbrev main_v973 : Ref sig .tc := ⟨.hbm, 997, rfl⟩
abbrev main_v974 : Ref sig .tc := ⟨.hbm, 998, rfl⟩
abbrev main_v975 : Ref sig .tc := ⟨.hbm, 999, rfl⟩
abbrev main_v976 : Ref sig .tc := ⟨.hbm, 1000, rfl⟩
abbrev main_v977 : Ref sig .tc := ⟨.hbm, 1001, rfl⟩
abbrev main_v978 : Ref sig .tc := ⟨.hbm, 1002, rfl⟩
abbrev main_v979 : Ref sig .tc := ⟨.hbm, 1003, rfl⟩
abbrev main_v980 : Ref sig .tc := ⟨.hbm, 1004, rfl⟩
abbrev main_v981 : Ref sig .tc := ⟨.hbm, 1005, rfl⟩
abbrev main_v982 : Ref sig .tc := ⟨.hbm, 1006, rfl⟩
abbrev main_v983 : Ref sig .tc := ⟨.hbm, 1007, rfl⟩
abbrev main_v984 : Ref sig .tc := ⟨.hbm, 1008, rfl⟩
abbrev main_v985 : Ref sig .tc := ⟨.hbm, 1009, rfl⟩
abbrev main_v986 : Ref sig .tc := ⟨.hbm, 1010, rfl⟩
abbrev main_v987 : Ref sig .tc := ⟨.hbm, 1011, rfl⟩
abbrev main_v988 : Ref sig .tc := ⟨.hbm, 1012, rfl⟩
abbrev main_v989 : Ref sig .tc := ⟨.hbm, 1013, rfl⟩
abbrev main_v990 : Ref sig .tc := ⟨.hbm, 1014, rfl⟩
abbrev main_v991 : Ref sig .tc := ⟨.hbm, 1015, rfl⟩
abbrev main_v992 : Ref sig .tc := ⟨.hbm, 1016, rfl⟩
abbrev main_v993 : Ref sig .tc := ⟨.hbm, 1017, rfl⟩
abbrev main_v994 : Ref sig .tc := ⟨.hbm, 1018, rfl⟩
abbrev main_v995 : Ref sig .tc := ⟨.hbm, 1019, rfl⟩
abbrev main_v996 : Ref sig .tc := ⟨.hbm, 1020, rfl⟩
abbrev main_v997 : Ref sig .tc := ⟨.hbm, 1021, rfl⟩
abbrev main_v998 : Ref sig .tc := ⟨.hbm, 1022, rfl⟩
abbrev main_v999 : Ref sig .tc := ⟨.hbm, 1023, rfl⟩
abbrev main_v1000 : Ref sig .tc := ⟨.hbm, 1024, rfl⟩
abbrev main_v1001 : Ref sig .tc := ⟨.hbm, 1025, rfl⟩
abbrev main_v1002 : Ref sig .tc := ⟨.hbm, 1026, rfl⟩
abbrev main_v1003 : Ref sig .tc := ⟨.hbm, 1027, rfl⟩
abbrev main_v1004 : Ref sig .tc := ⟨.hbm, 1028, rfl⟩
abbrev main_v1005 : Ref sig .tc := ⟨.hbm, 1029, rfl⟩
abbrev main_v1006 : Ref sig .tc := ⟨.hbm, 1030, rfl⟩
abbrev main_v1007 : Ref sig .tc := ⟨.hbm, 1031, rfl⟩
abbrev main_v1008 : Ref sig .tc := ⟨.hbm, 1032, rfl⟩
abbrev main_v1009 : Ref sig .tc := ⟨.hbm, 1033, rfl⟩
abbrev main_v1010 : Ref sig .tc := ⟨.hbm, 1034, rfl⟩
abbrev main_v1011 : Ref sig .tc := ⟨.hbm, 1035, rfl⟩
abbrev main_v1012 : Ref sig .tc := ⟨.hbm, 1036, rfl⟩
abbrev main_v1013 : Ref sig .tc := ⟨.hbm, 1037, rfl⟩
abbrev main_v1014 : Ref sig .tc := ⟨.hbm, 1038, rfl⟩
abbrev main_v1015 : Ref sig .tc := ⟨.hbm, 1039, rfl⟩
abbrev main_v1016 : Ref sig .tc := ⟨.hbm, 1040, rfl⟩
abbrev main_v1017 : Ref sig .tc := ⟨.hbm, 1041, rfl⟩
abbrev main_v1018 : Ref sig .tc := ⟨.hbm, 1042, rfl⟩
abbrev main_v1019 : Ref sig .tc := ⟨.hbm, 1043, rfl⟩
abbrev main_v1020 : Ref sig .tc := ⟨.hbm, 1044, rfl⟩
abbrev main_v1021 : Ref sig .tc := ⟨.hbm, 1045, rfl⟩
abbrev main_v1022 : Ref sig .tc := ⟨.hbm, 1046, rfl⟩
abbrev main_v1023 : Ref sig .tc := ⟨.hbm, 1047, rfl⟩
abbrev main_v1024 : Ref sig .tc := ⟨.hbm, 1048, rfl⟩
abbrev main_v1025 : Ref sig .tc := ⟨.hbm, 1049, rfl⟩
abbrev main_v1026 : Ref sig .tc := ⟨.hbm, 1050, rfl⟩
abbrev main_v1027 : Ref sig .tc := ⟨.hbm, 1051, rfl⟩
abbrev main_v1028 : Ref sig .tc := ⟨.hbm, 1052, rfl⟩
abbrev main_v1029 : Ref sig .tc := ⟨.hbm, 1053, rfl⟩
abbrev main_v1030 : Ref sig .tc := ⟨.hbm, 1054, rfl⟩
abbrev main_v1031 : Ref sig .tc := ⟨.hbm, 1055, rfl⟩
abbrev main_v1032 : Ref sig .tc := ⟨.hbm, 1056, rfl⟩
abbrev main_v1033 : Ref sig .tc := ⟨.hbm, 1057, rfl⟩
abbrev main_v1034 : Ref sig .tc := ⟨.hbm, 1058, rfl⟩
abbrev main_v1035 : Ref sig .tc := ⟨.hbm, 1059, rfl⟩
abbrev main_v1036 : Ref sig .tc := ⟨.hbm, 1060, rfl⟩
abbrev main_v1037 : Ref sig .tc := ⟨.hbm, 1061, rfl⟩
abbrev main_v1038 : Ref sig .tc := ⟨.hbm, 1062, rfl⟩
abbrev main_v1039 : Ref sig .tc := ⟨.hbm, 1063, rfl⟩
abbrev main_v1040 : Ref sig .tc := ⟨.hbm, 1064, rfl⟩
abbrev main_v1041 : Ref sig .tc := ⟨.hbm, 1065, rfl⟩
abbrev main_v1042 : Ref sig .tc := ⟨.hbm, 1066, rfl⟩
abbrev main_v1043 : Ref sig .tc := ⟨.hbm, 1067, rfl⟩
abbrev main_v1044 : Ref sig .tc := ⟨.hbm, 1068, rfl⟩
abbrev main_v1045 : Ref sig .tc := ⟨.hbm, 1069, rfl⟩
abbrev main_v1046 : Ref sig .tc := ⟨.hbm, 1070, rfl⟩
abbrev main_v1047 : Ref sig .tc := ⟨.hbm, 1071, rfl⟩
abbrev main_v1048 : Ref sig .tc := ⟨.hbm, 1072, rfl⟩
abbrev main_v1049 : Ref sig .tc := ⟨.hbm, 1073, rfl⟩
abbrev main_v1050 : Ref sig .tc := ⟨.hbm, 1074, rfl⟩
abbrev main_v1051 : Ref sig .tc := ⟨.hbm, 1075, rfl⟩
abbrev main_v1052 : Ref sig .tc := ⟨.hbm, 1076, rfl⟩
abbrev main_v1053 : Ref sig .tc := ⟨.hbm, 1077, rfl⟩
abbrev main_v1054 : Ref sig .tc := ⟨.hbm, 1078, rfl⟩
abbrev main_v1055 : Ref sig .tc := ⟨.hbm, 1079, rfl⟩
abbrev main_v1056 : Ref sig .tc := ⟨.hbm, 1080, rfl⟩
abbrev main_v1057 : Ref sig .tc := ⟨.hbm, 1081, rfl⟩
abbrev main_v1058 : Ref sig .tc := ⟨.hbm, 1082, rfl⟩
abbrev main_v1059 : Ref sig .tc := ⟨.hbm, 1083, rfl⟩
abbrev main_v1060 : Ref sig .tc := ⟨.hbm, 1084, rfl⟩
abbrev main_v1061 : Ref sig .tc := ⟨.hbm, 1085, rfl⟩
abbrev main_v1062 : Ref sig .tc := ⟨.hbm, 1086, rfl⟩
abbrev main_v1063 : Ref sig .tc := ⟨.hbm, 1087, rfl⟩
abbrev main_v1064 : Ref sig .tc := ⟨.hbm, 1088, rfl⟩
abbrev main_v1065 : Ref sig .tc := ⟨.hbm, 1089, rfl⟩
abbrev main_v1066 : Ref sig .tc := ⟨.hbm, 1090, rfl⟩
abbrev main_v1067 : Ref sig .tc := ⟨.hbm, 1091, rfl⟩
abbrev main_v1068 : Ref sig .tc := ⟨.hbm, 1092, rfl⟩
abbrev main_v1069 : Ref sig .tc := ⟨.hbm, 1093, rfl⟩
abbrev main_v1070 : Ref sig .tc := ⟨.hbm, 1094, rfl⟩
abbrev main_v1071 : Ref sig .tc := ⟨.hbm, 1095, rfl⟩
abbrev main_v1072 : Ref sig .tc := ⟨.hbm, 1096, rfl⟩
abbrev main_v1073 : Ref sig .tc := ⟨.hbm, 1097, rfl⟩
abbrev main_v1074 : Ref sig .tc := ⟨.hbm, 1098, rfl⟩
abbrev main_v1075 : Ref sig .tc := ⟨.hbm, 1099, rfl⟩
abbrev main_v1076 : Ref sig .tc := ⟨.hbm, 1100, rfl⟩
abbrev main_v1077 : Ref sig .tc := ⟨.hbm, 1101, rfl⟩
abbrev main_v1078 : Ref sig .tc := ⟨.hbm, 1102, rfl⟩
abbrev main_v1079 : Ref sig .tc := ⟨.hbm, 1103, rfl⟩
abbrev main_v1080 : Ref sig .tc := ⟨.hbm, 1104, rfl⟩
abbrev main_v1081 : Ref sig .tc := ⟨.hbm, 1105, rfl⟩
abbrev main_v1082 : Ref sig .tc := ⟨.hbm, 1106, rfl⟩
abbrev main_v1083 : Ref sig .tc := ⟨.hbm, 1107, rfl⟩
abbrev main_v1084 : Ref sig .tc := ⟨.hbm, 1108, rfl⟩
abbrev main_v1085 : Ref sig .tc := ⟨.hbm, 1109, rfl⟩
abbrev main_v1086 : Ref sig .tc := ⟨.hbm, 1110, rfl⟩
abbrev main_v1087 : Ref sig .tc := ⟨.hbm, 1111, rfl⟩
abbrev main_v1088 : Ref sig .tc := ⟨.hbm, 1112, rfl⟩
abbrev main_v1089 : Ref sig .tc := ⟨.hbm, 1113, rfl⟩
abbrev main_v1090 : Ref sig .tc := ⟨.hbm, 1114, rfl⟩
abbrev main_v1091 : Ref sig .tc := ⟨.hbm, 1115, rfl⟩
abbrev main_v1092 : Ref sig .tc := ⟨.hbm, 1116, rfl⟩
abbrev main_v1093 : Ref sig .tc := ⟨.hbm, 1117, rfl⟩
abbrev main_v1094 : Ref sig .tc := ⟨.hbm, 1118, rfl⟩
abbrev main_v1095 : Ref sig .tc := ⟨.hbm, 1119, rfl⟩
abbrev main_v1096 : Ref sig .tc := ⟨.hbm, 1120, rfl⟩
abbrev main_v1097 : Ref sig .tc := ⟨.hbm, 1121, rfl⟩
abbrev main_v1098 : Ref sig .tc := ⟨.hbm, 1122, rfl⟩
abbrev main_v1099 : Ref sig .tc := ⟨.hbm, 1123, rfl⟩
abbrev main_v1100 : Ref sig .tc := ⟨.hbm, 1124, rfl⟩
abbrev main_v1101 : Ref sig .tc := ⟨.hbm, 1125, rfl⟩
abbrev main_v1102 : Ref sig .tc := ⟨.hbm, 1126, rfl⟩
abbrev main_v1103 : Ref sig .tc := ⟨.hbm, 1127, rfl⟩
abbrev main_v1104 : Ref sig .tc := ⟨.hbm, 1128, rfl⟩
abbrev main_v1105 : Ref sig .tc := ⟨.hbm, 1129, rfl⟩
abbrev main_v1106 : Ref sig .tc := ⟨.hbm, 1130, rfl⟩
abbrev main_v1107 : Ref sig .tc := ⟨.hbm, 1131, rfl⟩
abbrev main_v1108 : Ref sig .tc := ⟨.hbm, 1132, rfl⟩
abbrev main_v1109 : Ref sig .tc := ⟨.hbm, 1133, rfl⟩
abbrev main_v1110 : Ref sig .tc := ⟨.hbm, 1134, rfl⟩
abbrev main_v1111 : Ref sig .tc := ⟨.hbm, 1135, rfl⟩
abbrev main_v1112 : Ref sig .tc := ⟨.hbm, 1136, rfl⟩
abbrev main_v1113 : Ref sig .tc := ⟨.hbm, 1137, rfl⟩
abbrev main_v1114 : Ref sig .tc := ⟨.hbm, 1138, rfl⟩
abbrev main_v1115 : Ref sig .tc := ⟨.hbm, 1139, rfl⟩
abbrev main_v1116 : Ref sig .tc := ⟨.hbm, 1140, rfl⟩
abbrev main_v1117 : Ref sig .tc := ⟨.hbm, 1141, rfl⟩
abbrev main_v1118 : Ref sig .tc := ⟨.hbm, 1142, rfl⟩
abbrev main_v1119 : Ref sig .tc := ⟨.hbm, 1143, rfl⟩
abbrev main_v1120 : Ref sig .tc := ⟨.hbm, 1144, rfl⟩
abbrev main_v1121 : Ref sig .tc := ⟨.hbm, 1145, rfl⟩
abbrev main_v1122 : Ref sig .tc := ⟨.hbm, 1146, rfl⟩
abbrev main_v1123 : Ref sig .tc := ⟨.hbm, 1147, rfl⟩
abbrev main_v1124 : Ref sig .tc := ⟨.hbm, 1148, rfl⟩
abbrev main_v1125 : Ref sig .tc := ⟨.hbm, 1149, rfl⟩
abbrev main_v1126 : Ref sig .tc := ⟨.hbm, 1150, rfl⟩
abbrev main_v1127 : Ref sig .tc := ⟨.hbm, 1151, rfl⟩
abbrev main_v1128 : Ref sig .tc := ⟨.hbm, 1152, rfl⟩
abbrev main_v1129 : Ref sig .tc := ⟨.hbm, 1153, rfl⟩
abbrev main_v1130 : Ref sig .tc := ⟨.hbm, 1154, rfl⟩
abbrev main_v1131 : Ref sig .tc := ⟨.hbm, 1155, rfl⟩
abbrev main_v1132 : Ref sig .tc := ⟨.hbm, 1156, rfl⟩
abbrev main_v1133 : Ref sig .tc := ⟨.hbm, 1157, rfl⟩
abbrev main_v1134 : Ref sig .tc := ⟨.hbm, 1158, rfl⟩
abbrev main_v1135 : Ref sig .tc := ⟨.hbm, 1159, rfl⟩
abbrev main_v1136 : Ref sig .tc := ⟨.hbm, 1160, rfl⟩
abbrev main_v1137 : Ref sig .tc := ⟨.hbm, 1161, rfl⟩
abbrev main_v1138 : Ref sig .tc := ⟨.hbm, 1162, rfl⟩
abbrev main_v1139 : Ref sig .tc := ⟨.hbm, 1163, rfl⟩
abbrev main_v1140 : Ref sig .tc := ⟨.hbm, 1164, rfl⟩
abbrev main_v1141 : Ref sig .tc := ⟨.hbm, 1165, rfl⟩
abbrev main_v1142 : Ref sig .tc := ⟨.hbm, 1166, rfl⟩
abbrev main_v1143 : Ref sig .tc := ⟨.hbm, 1167, rfl⟩
abbrev main_v1144 : Ref sig .tc := ⟨.hbm, 1168, rfl⟩
abbrev main_v1145 : Ref sig .tc := ⟨.hbm, 1169, rfl⟩
abbrev main_v1146 : Ref sig .tc := ⟨.hbm, 1170, rfl⟩
abbrev main_v1147 : Ref sig .tc := ⟨.hbm, 1171, rfl⟩
abbrev main_v1148 : Ref sig .tc := ⟨.hbm, 1172, rfl⟩
abbrev main_v1149 : Ref sig .tc := ⟨.hbm, 1173, rfl⟩
abbrev main_v1150 : Ref sig .tc := ⟨.hbm, 1174, rfl⟩
abbrev main_v1151 : Ref sig .tc := ⟨.hbm, 1175, rfl⟩
abbrev main_v1152 : Ref sig .tc := ⟨.hbm, 1176, rfl⟩
abbrev main_v1153 : Ref sig .tc := ⟨.hbm, 1177, rfl⟩
abbrev main_v1154 : Ref sig .tc := ⟨.hbm, 1178, rfl⟩
abbrev main_v1155 : Ref sig .tc := ⟨.hbm, 1179, rfl⟩
abbrev main_v1156 : Ref sig .tc := ⟨.hbm, 1180, rfl⟩
abbrev main_v1157 : Ref sig .tc := ⟨.hbm, 1181, rfl⟩
abbrev main_v1158 : Ref sig .tc := ⟨.hbm, 1182, rfl⟩
abbrev main_v1159 : Ref sig .tc := ⟨.hbm, 1183, rfl⟩
abbrev main_v1160 : Ref sig .tc := ⟨.hbm, 1184, rfl⟩
abbrev main_v1161 : Ref sig .tc := ⟨.hbm, 1185, rfl⟩
abbrev main_v1162 : Ref sig .tc := ⟨.hbm, 1186, rfl⟩
abbrev main_v1163 : Ref sig .tc := ⟨.hbm, 1187, rfl⟩
abbrev main_v1164 : Ref sig .tc := ⟨.hbm, 1188, rfl⟩
abbrev main_v1165 : Ref sig .tc := ⟨.hbm, 1189, rfl⟩
abbrev main_v1166 : Ref sig .tc := ⟨.hbm, 1190, rfl⟩
abbrev main_v1167 : Ref sig .tc := ⟨.hbm, 1191, rfl⟩
abbrev main_v1168 : Ref sig .tc := ⟨.hbm, 1192, rfl⟩
abbrev main_v1169 : Ref sig .tc := ⟨.hbm, 1193, rfl⟩
abbrev main_v1170 : Ref sig .tc := ⟨.hbm, 1194, rfl⟩
abbrev main_v1171 : Ref sig .tc := ⟨.hbm, 1195, rfl⟩
abbrev main_v1172 : Ref sig .tc := ⟨.hbm, 1196, rfl⟩
abbrev main_v1173 : Ref sig .tc := ⟨.hbm, 1197, rfl⟩
abbrev main_v1174 : Ref sig .tc := ⟨.hbm, 1198, rfl⟩
abbrev main_v1175 : Ref sig .tc := ⟨.hbm, 1199, rfl⟩
abbrev main_v1176 : Ref sig .tc := ⟨.hbm, 1200, rfl⟩
abbrev main_v1177 : Ref sig .tc := ⟨.hbm, 1201, rfl⟩
abbrev main_v1178 : Ref sig .tc := ⟨.hbm, 1202, rfl⟩
abbrev main_v1179 : Ref sig .tc := ⟨.hbm, 1203, rfl⟩
abbrev main_v1180 : Ref sig .tc := ⟨.hbm, 1204, rfl⟩
abbrev main_v1181 : Ref sig .tc := ⟨.hbm, 1205, rfl⟩
abbrev main_v1182 : Ref sig .tc := ⟨.hbm, 1206, rfl⟩
abbrev main_v1183 : Ref sig .tc := ⟨.hbm, 1207, rfl⟩
abbrev main_v1184 : Ref sig .tc := ⟨.hbm, 1208, rfl⟩
abbrev main_v1185 : Ref sig .tc := ⟨.hbm, 1209, rfl⟩
abbrev main_v1186 : Ref sig .tc := ⟨.hbm, 1210, rfl⟩
abbrev main_v1187 : Ref sig .tc := ⟨.hbm, 1211, rfl⟩
abbrev main_v1188 : Ref sig .tc := ⟨.hbm, 1212, rfl⟩
abbrev main_v1189 : Ref sig .tc := ⟨.hbm, 1213, rfl⟩
abbrev main_v1190 : Ref sig .tc := ⟨.hbm, 1214, rfl⟩
abbrev main_v1191 : Ref sig .tc := ⟨.hbm, 1215, rfl⟩
abbrev main_v1192 : Ref sig .tc := ⟨.hbm, 1216, rfl⟩
abbrev main_v1193 : Ref sig .tc := ⟨.hbm, 1217, rfl⟩
abbrev main_v1194 : Ref sig .tc := ⟨.hbm, 1218, rfl⟩
abbrev main_v1195 : Ref sig .tc := ⟨.hbm, 1219, rfl⟩
abbrev main_v1196 : Ref sig .tc := ⟨.hbm, 1220, rfl⟩
abbrev main_v1197 : Ref sig .tc := ⟨.hbm, 1221, rfl⟩
abbrev main_v1198 : Ref sig .tc := ⟨.hbm, 1222, rfl⟩
abbrev main_v1199 : Ref sig .tc := ⟨.hbm, 1223, rfl⟩
abbrev main_v1200 : Ref sig .tc := ⟨.hbm, 1224, rfl⟩
abbrev main_v1201 : Ref sig .tc := ⟨.hbm, 1225, rfl⟩
abbrev main_v1202 : Ref sig .tc := ⟨.hbm, 1226, rfl⟩
abbrev main_v1203 : Ref sig .tc := ⟨.hbm, 1227, rfl⟩
abbrev main_v1204 : Ref sig .tc := ⟨.hbm, 1228, rfl⟩
abbrev main_v1205 : Ref sig .tc := ⟨.hbm, 1229, rfl⟩
abbrev main_v1206 : Ref sig .tc := ⟨.hbm, 1230, rfl⟩
abbrev main_v1207 : Ref sig .tc := ⟨.hbm, 1231, rfl⟩
abbrev main_v1208 : Ref sig .tc := ⟨.hbm, 1232, rfl⟩
abbrev main_v1209 : Ref sig .tc := ⟨.hbm, 1233, rfl⟩
abbrev main_v1210 : Ref sig .tc := ⟨.hbm, 1234, rfl⟩
abbrev main_v1211 : Ref sig .tc := ⟨.hbm, 1235, rfl⟩
abbrev main_v1212 : Ref sig .tc := ⟨.hbm, 1236, rfl⟩
abbrev main_v1213 : Ref sig .tc := ⟨.hbm, 1237, rfl⟩
abbrev main_v1214 : Ref sig .tc := ⟨.hbm, 1238, rfl⟩
abbrev main_v1215 : Ref sig .tc := ⟨.hbm, 1239, rfl⟩
abbrev main_v1216 : Ref sig .tc := ⟨.hbm, 1240, rfl⟩
abbrev main_v1217 : Ref sig .tc := ⟨.hbm, 1241, rfl⟩
abbrev main_v1218 : Ref sig .tc := ⟨.hbm, 1242, rfl⟩
abbrev main_v1219 : Ref sig .tc := ⟨.hbm, 1243, rfl⟩
abbrev main_v1220 : Ref sig .tc := ⟨.hbm, 1244, rfl⟩
abbrev main_v1221 : Ref sig .tc := ⟨.hbm, 1245, rfl⟩
abbrev main_v1222 : Ref sig .tc := ⟨.hbm, 1246, rfl⟩
abbrev main_v1223 : Ref sig .tc := ⟨.hbm, 1247, rfl⟩
abbrev main_v1224 : Ref sig .tc := ⟨.hbm, 1248, rfl⟩
abbrev main_v1225 : Ref sig .tc := ⟨.hbm, 1249, rfl⟩
abbrev main_v1226 : Ref sig .tc := ⟨.hbm, 1250, rfl⟩
abbrev main_v1227 : Ref sig .tc := ⟨.hbm, 1251, rfl⟩
abbrev main_v1228 : Ref sig .tc := ⟨.hbm, 1252, rfl⟩
abbrev main_v1229 : Ref sig .tc := ⟨.hbm, 1253, rfl⟩
abbrev main_v1230 : Ref sig .tc := ⟨.hbm, 1254, rfl⟩
abbrev main_v1231 : Ref sig .tc := ⟨.hbm, 1255, rfl⟩
abbrev main_v1232 : Ref sig .tc := ⟨.hbm, 1256, rfl⟩
abbrev main_v1233 : Ref sig .tc := ⟨.hbm, 1257, rfl⟩
abbrev main_v1234 : Ref sig .tc := ⟨.hbm, 1258, rfl⟩
abbrev main_v1235 : Ref sig .tc := ⟨.hbm, 1259, rfl⟩
abbrev main_v1236 : Ref sig .tc := ⟨.hbm, 1260, rfl⟩
abbrev main_v1237 : Ref sig .tc := ⟨.hbm, 1261, rfl⟩
abbrev main_v1238 : Ref sig .tc := ⟨.hbm, 1262, rfl⟩
abbrev main_v1239 : Ref sig .tc := ⟨.hbm, 1263, rfl⟩
abbrev main_v1240 : Ref sig .tc := ⟨.hbm, 1264, rfl⟩
abbrev main_v1241 : Ref sig .tc := ⟨.hbm, 1265, rfl⟩
abbrev main_v1242 : Ref sig .tc := ⟨.hbm, 1266, rfl⟩
abbrev main_v1243 : Ref sig .tc := ⟨.hbm, 1267, rfl⟩
abbrev main_v1244 : Ref sig .tc := ⟨.hbm, 1268, rfl⟩
abbrev main_v1245 : Ref sig .tc := ⟨.hbm, 1269, rfl⟩
abbrev main_v1246 : Ref sig .tc := ⟨.hbm, 1270, rfl⟩
abbrev main_v1247 : Ref sig .tc := ⟨.hbm, 1271, rfl⟩
abbrev main_v1248 : Ref sig .tc := ⟨.hbm, 1272, rfl⟩
abbrev main_v1249 : Ref sig .tc := ⟨.hbm, 1273, rfl⟩
abbrev main_v1250 : Ref sig .tc := ⟨.hbm, 1274, rfl⟩
abbrev main_v1251 : Ref sig .tc := ⟨.hbm, 1275, rfl⟩
abbrev main_v1252 : Ref sig .tc := ⟨.hbm, 1276, rfl⟩
abbrev main_v1253 : Ref sig .tc := ⟨.hbm, 1277, rfl⟩
abbrev main_v1254 : Ref sig .tc := ⟨.hbm, 1278, rfl⟩
abbrev main_v1255 : Ref sig .tc := ⟨.hbm, 1279, rfl⟩
abbrev main_v1256 : Ref sig .tc := ⟨.hbm, 1280, rfl⟩
abbrev main_v1257 : Ref sig .tc := ⟨.hbm, 1281, rfl⟩
abbrev main_v1258 : Ref sig .tc := ⟨.hbm, 1282, rfl⟩
abbrev main_v1259 : Ref sig .tc := ⟨.hbm, 1283, rfl⟩
abbrev main_v1260 : Ref sig .tc := ⟨.hbm, 1284, rfl⟩
abbrev main_v1261 : Ref sig .tc := ⟨.hbm, 1285, rfl⟩
abbrev main_v1262 : Ref sig .tc := ⟨.hbm, 1286, rfl⟩
abbrev main_v1263 : Ref sig .tc := ⟨.hbm, 1287, rfl⟩
abbrev main_v1264 : Ref sig .tc := ⟨.hbm, 1288, rfl⟩
abbrev main_v1265 : Ref sig .tc := ⟨.hbm, 1289, rfl⟩
abbrev main_v1266 : Ref sig .tc := ⟨.hbm, 1290, rfl⟩
abbrev main_v1267 : Ref sig .tc := ⟨.hbm, 1291, rfl⟩
abbrev main_v1268 : Ref sig .tc := ⟨.hbm, 1292, rfl⟩
abbrev main_v1269 : Ref sig .tc := ⟨.hbm, 1293, rfl⟩
abbrev main_v1270 : Ref sig .tc := ⟨.hbm, 1294, rfl⟩
abbrev main_v1271 : Ref sig .tc := ⟨.hbm, 1295, rfl⟩
abbrev main_v1272 : Ref sig .tc := ⟨.hbm, 1296, rfl⟩
abbrev main_v1273 : Ref sig .tc := ⟨.hbm, 1297, rfl⟩
abbrev main_v1274 : Ref sig .tc := ⟨.hbm, 1298, rfl⟩
abbrev main_v1275 : Ref sig .tc := ⟨.hbm, 1299, rfl⟩
abbrev main_v1276 : Ref sig .tc := ⟨.hbm, 1300, rfl⟩
abbrev main_v1277 : Ref sig .tc := ⟨.hbm, 1301, rfl⟩
abbrev main_v1278 : Ref sig .tc := ⟨.hbm, 1302, rfl⟩
abbrev main_v1279 : Ref sig .tc := ⟨.hbm, 1303, rfl⟩
abbrev main_v1280 : Ref sig .tc := ⟨.hbm, 1304, rfl⟩
abbrev main_v1281 : Ref sig .tc := ⟨.hbm, 1305, rfl⟩
abbrev main_v1282 : Ref sig .tc := ⟨.hbm, 1306, rfl⟩
abbrev main_v1283 : Ref sig .tc := ⟨.hbm, 1307, rfl⟩
abbrev main_v1284 : Ref sig .tc := ⟨.hbm, 1308, rfl⟩
abbrev main_v1285 : Ref sig .tc := ⟨.hbm, 1309, rfl⟩
abbrev main_v1286 : Ref sig .tc := ⟨.hbm, 1310, rfl⟩
abbrev main_v1287 : Ref sig .tc := ⟨.hbm, 1311, rfl⟩
abbrev main_v1288 : Ref sig .tc := ⟨.hbm, 1312, rfl⟩
abbrev main_v1289 : Ref sig .tc := ⟨.hbm, 1313, rfl⟩
abbrev main_v1290 : Ref sig .tc := ⟨.hbm, 1314, rfl⟩
abbrev main_v1291 : Ref sig .tc := ⟨.hbm, 1315, rfl⟩
abbrev main_v1292 : Ref sig .tc := ⟨.hbm, 1316, rfl⟩
abbrev main_v1293 : Ref sig .tc := ⟨.hbm, 1317, rfl⟩
abbrev main_v1294 : Ref sig .tc := ⟨.hbm, 1318, rfl⟩
abbrev main_v1295 : Ref sig .tc := ⟨.hbm, 1319, rfl⟩
abbrev main_v1296 : Ref sig .tc := ⟨.hbm, 1320, rfl⟩
abbrev main_v1297 : Ref sig .tc := ⟨.hbm, 1321, rfl⟩
abbrev main_v1298 : Ref sig .tc := ⟨.hbm, 1322, rfl⟩
abbrev main_v1299 : Ref sig .tc := ⟨.hbm, 1323, rfl⟩
abbrev main_v1300 : Ref sig .tc := ⟨.hbm, 1324, rfl⟩
abbrev main_v1301 : Ref sig .tc := ⟨.hbm, 1325, rfl⟩
abbrev main_v1302 : Ref sig .tc := ⟨.hbm, 1326, rfl⟩
abbrev main_v1303 : Ref sig .tc := ⟨.hbm, 1327, rfl⟩
abbrev main_v1304 : Ref sig .tc := ⟨.hbm, 1328, rfl⟩
abbrev main_v1305 : Ref sig .tc := ⟨.hbm, 1329, rfl⟩
abbrev main_v1306 : Ref sig .tc := ⟨.hbm, 1330, rfl⟩
abbrev main_v1307 : Ref sig .tc := ⟨.hbm, 1331, rfl⟩
abbrev main_v1308 : Ref sig .tc := ⟨.hbm, 1332, rfl⟩
abbrev main_v1309 : Ref sig .tc := ⟨.hbm, 1333, rfl⟩
abbrev main_v1310 : Ref sig .tc := ⟨.hbm, 1334, rfl⟩
abbrev main_v1311 : Ref sig .tc := ⟨.hbm, 1335, rfl⟩
abbrev main_v1312 : Ref sig .tc := ⟨.hbm, 1336, rfl⟩
abbrev main_v1313 : Ref sig .tc := ⟨.hbm, 1337, rfl⟩
abbrev main_v1314 : Ref sig .tc := ⟨.hbm, 1338, rfl⟩
abbrev main_v1315 : Ref sig .tc := ⟨.hbm, 1339, rfl⟩
abbrev main_v1316 : Ref sig .tc := ⟨.hbm, 1340, rfl⟩
abbrev main_v1317 : Ref sig .tc := ⟨.hbm, 1341, rfl⟩
abbrev main_v1318 : Ref sig .tc := ⟨.hbm, 1342, rfl⟩
abbrev main_v1319 : Ref sig .tc := ⟨.hbm, 1343, rfl⟩
abbrev main_v1320 : Ref sig .tc := ⟨.hbm, 1344, rfl⟩
abbrev main_v1321 : Ref sig .tc := ⟨.hbm, 1345, rfl⟩
abbrev main_v1322 : Ref sig .tc := ⟨.hbm, 1346, rfl⟩
abbrev main_v1323 : Ref sig .tc := ⟨.hbm, 1347, rfl⟩
abbrev main_v1324 : Ref sig .tc := ⟨.hbm, 1348, rfl⟩
abbrev main_v1325 : Ref sig .tc := ⟨.hbm, 1349, rfl⟩
abbrev main_v1326 : Ref sig .tc := ⟨.hbm, 1350, rfl⟩
abbrev main_v1327 : Ref sig .tc := ⟨.hbm, 1351, rfl⟩
abbrev main_v1328 : Ref sig .tc := ⟨.hbm, 1352, rfl⟩
abbrev main_v1329 : Ref sig .tc := ⟨.hbm, 1353, rfl⟩
abbrev main_v1330 : Ref sig .tc := ⟨.hbm, 1354, rfl⟩
abbrev main_v1331 : Ref sig .tc := ⟨.hbm, 1355, rfl⟩
abbrev main_v1332 : Ref sig .tc := ⟨.hbm, 1356, rfl⟩
abbrev main_v1333 : Ref sig .tc := ⟨.hbm, 1357, rfl⟩
abbrev main_v1334 : Ref sig .tc := ⟨.hbm, 1358, rfl⟩
abbrev main_v1335 : Ref sig .tc := ⟨.hbm, 1359, rfl⟩
abbrev main_v1336 : Ref sig .tc := ⟨.hbm, 1360, rfl⟩
abbrev main_v1337 : Ref sig .tc := ⟨.hbm, 1361, rfl⟩
abbrev main_v1338 : Ref sig .tc := ⟨.hbm, 1362, rfl⟩
abbrev main_v1339 : Ref sig .tc := ⟨.hbm, 1363, rfl⟩
abbrev main_v1340 : Ref sig .tc := ⟨.hbm, 1364, rfl⟩
abbrev main_v1341 : Ref sig .tc := ⟨.hbm, 1365, rfl⟩
abbrev main_v1342 : Ref sig .tc := ⟨.hbm, 1366, rfl⟩
abbrev main_v1343 : Ref sig .tc := ⟨.hbm, 1367, rfl⟩
abbrev main_v1344 : Ref sig .tc := ⟨.hbm, 1368, rfl⟩
abbrev main_v1345 : Ref sig .tc := ⟨.hbm, 1369, rfl⟩
abbrev main_v1346 : Ref sig .tc := ⟨.hbm, 1370, rfl⟩
abbrev main_v1347 : Ref sig .tc := ⟨.hbm, 1371, rfl⟩
abbrev main_v1348 : Ref sig .tc := ⟨.hbm, 1372, rfl⟩
abbrev main_v1349 : Ref sig .tc := ⟨.hbm, 1373, rfl⟩
abbrev main_v1350 : Ref sig .tc := ⟨.hbm, 1374, rfl⟩
abbrev main_v1351 : Ref sig .tc := ⟨.hbm, 1375, rfl⟩
abbrev main_v1352 : Ref sig .tc := ⟨.hbm, 1376, rfl⟩
abbrev main_v1353 : Ref sig .tc := ⟨.hbm, 1377, rfl⟩
abbrev main_v1354 : Ref sig .tc := ⟨.hbm, 1378, rfl⟩
abbrev main_v1355 : Ref sig .tc := ⟨.hbm, 1379, rfl⟩
abbrev main_v1356 : Ref sig .tc := ⟨.hbm, 1380, rfl⟩
abbrev main_v1357 : Ref sig .tc := ⟨.hbm, 1381, rfl⟩
abbrev main_v1358 : Ref sig .tc := ⟨.hbm, 1382, rfl⟩
abbrev main_v1359 : Ref sig .tc := ⟨.hbm, 1383, rfl⟩
abbrev main_v1360 : Ref sig .tc := ⟨.hbm, 1384, rfl⟩
abbrev main_v1361 : Ref sig .tc := ⟨.hbm, 1385, rfl⟩
abbrev main_v1362 : Ref sig .tc := ⟨.hbm, 1386, rfl⟩
abbrev main_v1363 : Ref sig .tc := ⟨.hbm, 1387, rfl⟩
abbrev main_v1364 : Ref sig .tc := ⟨.hbm, 1388, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  reducesTo_S8192x10_S8192_d1 : S8192x10.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  slices_S8192x10_S8192x1_0_0 : S8192x10.Slices ![0, 0] S8192x1
  shapeCasts_S8192x1_S8192 : S8192x1.ShapeCasts S8192
  slices_S8192x10_S8192x1_0_1 : S8192x10.Slices ![0, 1] S8192x1
  slices_S8192x10_S8192x1_0_2 : S8192x10.Slices ![0, 2] S8192x1
  slices_S8192x10_S8192x1_0_3 : S8192x10.Slices ![0, 3] S8192x1
  slices_S8192x10_S8192x1_0_4 : S8192x10.Slices ![0, 4] S8192x1
  slices_S8192x10_S8192x1_0_5 : S8192x10.Slices ![0, 5] S8192x1
  slices_S8192x10_S8192x1_0_6 : S8192x10.Slices ![0, 6] S8192x1
  slices_S8192x10_S8192x1_0_7 : S8192x10.Slices ![0, 7] S8192x1
  slices_S8192x10_S8192x1_0_8 : S8192x10.Slices ![0, 8] S8192x1
  slices_S8192x10_S8192x1_0_9 : S8192x10.Slices ![0, 9] S8192x1
  dot_S8192x784_S784x4096_S8192x4096_1_0_0_1_n_n_wf : DotDims.WF S8192x784 S784x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x10_S8192x10_1_0_0_1_n_n_wf : DotDims.WF S8192x4096 S4096x10 S8192x10 [1] [0] [0] [1] [] []

variable [Facts₀]

def dot_S8192x784_S784x4096_S8192x4096_1_0_0_1_n_n : DotDims S8192x784 S784x4096 S8192x4096 where
  lhsContracting := [1]
  rhsContracting := [0]
  lhsNonContracting := [0]
  rhsNonContracting := [1]
  lhsBatch := []
  rhsBatch := []
  wf := dot_S8192x784_S784x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x10_S8192x10_1_0_0_1_n_n : DotDims S8192x4096 S4096x10 S8192x10 where
  lhsContracting := [1]
  rhsContracting := [0]
  lhsNonContracting := [0]
  rhsNonContracting := [1]
  lhsBatch := []
  rhsBatch := []
  wf := dot_S8192x4096_S4096x10_S8192x10_1_0_0_1_n_n_wf

class Facts : Prop extends Facts₀ where

variable [Facts]
-- ==== Proof.KBlocks.lean ====
import proofs.«149770_j20074677141979_1_alg».proof.Proof.Gen.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem idx_onto0 : ∀ q : Fin 16, ∃ t : Fin cfg0.N, win0_3.index t (0 : Fin 2) = q.val ∧ win0_3.index t (1 : Fin 2) = 0 :=
  (by decide +kernel : ∀ q : Fin 16, ∃ t : Fin grid0.N, _)

/-- The first input's block at point `t` is rows 512 t … 512 t + 511 of its array; the other two inputs' blocks are their whole arrays. -/
theorem iblk0_0_apply (c : Dev nD) (t : Fin cfg0.N) (x : S512x784.Idx) (k : S8192x784.Idx)
    (hk0 : (k 0).val = 512 * t.val + (x 0).val) (hk1 : (k 1).val = (x 1).val) :
    (iblk0 V c 0 t : Vec F S512x784 .bf16) x = (V c main_v0 : S8192x784.Idx → Elt F .bf16) k := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 512 + 1 * (x 0).val = (k 0).val; rw [e0, hk0]; omega
  | ⟨1, _⟩ => show win0_0.index t (1 : Fin 2) * 784 + 1 * (x 1).val = (k 1).val; rw [e1, hk1]; omega

theorem iblk0_1_apply (c : Dev nD) (t : Fin cfg0.N) (x : S784x4096.Idx) :
    (iblk0 V c 1 t : Vec F S784x4096 .bf16) x = (V c main_v1 : S784x4096.Idx → Elt F .bf16) x := by
  obtain ⟨-, -, e0, e1, -⟩ := idx_facts0 t
  unfold iblk0
  rw [View.read_apply]
  show V c main_v1 _ = V c main_v1 _
  congr 1
  funext a
  apply Fin.ext
  match a with
  | ⟨0, _⟩ => show win0_1.index t (0 : Fin 2) * 784 + 1 * (x 0).val = (x 0).val; rw [e0]; omega
  | ⟨1, _⟩ => show win0_1.index t (1 : Fin 2) * 4096 + 1 * (x 1).val = (x 1).val; rw [e1]; omega

theorem iblk0_2_apply (c : Dev nD) (t : Fin cfg0.N) (x : S4096.Idx) :
    (iblk0 V c 2 t : Vec F S4096 .f32) x = (V c main_arg2 : S4096.Idx → Elt F .f32) x := by
  obtain ⟨-, -, -, -, e0, -⟩ := idx_facts0 t
  unfold iblk0
  rw [View.read_apply]
  show V c main_arg2 _ = V c main_arg2 _
  congr 1
  funext a
  apply Fin.ext
  match a with
  | ⟨0, _⟩ => show win0_2.index t (0 : Fin 1) * 4096 + 1 * (x 0).val = (x 0).val; rw [e0]; omega

theorem mem_blk0 (t : Fin cfg0.N) (i : S8192x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v4).slice (win0_3.rect t)).set ↔ _
  rw [View.set_slice_whole, Rect.mem_set_unit]
  exact Iff.rfl

/-- What point `t` writes back is block `t` of `G`, when the stored block agrees with `G` entry by entry. -/
theorem flushed0_eq (c : Dev nD) (G : S8192x4096.Idx → Elt F .bf16)
    (hG : ∀ (t : Fin cfg0.N) (y : S512x4096.Idx) (k : S8192x4096.Idx), (k 0).val = 512 * t.val + (y 0).val → (k 1).val = (y 1).val →
      out0_3 (iblk0 V c 0 t) (iblk0 V c 1 t) (iblk0 V c 2 t) y = G k) (t : Fin cfg0.N) :
    (dat0 V c).flushed 3 t = ((cfg0.win 3).blk t).view.read (Elt F) G := by
  obtain ⟨-, -, -, -, -, e0, e1⟩ := idx_facts0 t
  show (cfg0.win 3).cut (grid0.coords t) ((dat0 V c).after 3 t) = _
  rw [after0_3]
  funext j
  rw [View.read_apply]
  refine hG t _ _ ?_ ?_
  · show win0_3.index t (0 : Fin 2) * 512 + 1 * (j 0).val = 512 * t.val + (j 0).val; rw [e0]; omega
  · show win0_3.index t (1 : Fin 2) * 4096 + 1 * (j 1).val = (j 1).val; rw [e1]; omega

/-- The output array after the last point is `G`: the row blocks cover it. -/
theorem final0 (c : Dev nD) (G : S8192x4096.Idx → Elt F .bf16)
    (hG : ∀ (t : Fin cfg0.N) (y : S512x4096.Idx) (k : S8192x4096.Idx), (k 0).val = 512 * t.val + (y 0).val → (k 1).val = (y 1).val →
      out0_3 (iblk0 V c 0 t) (iblk0 V c 1 t) (iblk0 V c 2 t) y = G k) :
    (dat0 V c).arrAt 3 cfg0.N = G :=
  (dat0 V c).arrAt_eq_of_cover 3 G (fun t _ => flushed0_eq V c G hG t) fun i => by
    have hi0 : (i 0).val < 8192 := (i 0).isLt
    have hi1 : (i 1).val < 4096 := (i 1).isLt
    obtain ⟨t, q0, q1⟩ := idx_onto0 ⟨(i 0).val / 512, by omega⟩
    refine ⟨t, flush0_3 t, ?_⟩
    rw [mem_blk0]
    intro a
    match a with
    | ⟨0, _⟩ => show win0_3.index t (0 : Fin 2) * 512 ≤ (i 0).val ∧ (i 0).val < win0_3.index t (0 : Fin 2) * 512 + 512; rw [q0]; show (i 0).val / 512 * 512 ≤ (i 0).val ∧ (i 0).val < (i 0).val / 512 * 512 + 512; omega
    | ⟨1, _⟩ => show win0_3.index t (1 : Fin 2) * 4096 ≤ (i 1).val ∧ (i 1).val < win0_3.index t (1 : Fin 2) * 4096 + 4096; rw [q1]; omega

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

theorem idx_onto1 : ∀ q : Fin 64, ∃ t : Fin cfg1.N, win1_3.index t (0 : Fin 2) = q.val ∧ win1_3.index t (1 : Fin 2) = 0 :=
  (by decide +kernel : ∀ q : Fin 64, ∃ t : Fin grid1.N, _)

theorem iblk1_0_apply (c : Dev nD) (t : Fin cfg1.N) (x : S128x4096.Idx) (k : S8192x4096.Idx)
    (hk0 : (k 0).val = 128 * t.val + (x 0).val) (hk1 : (k 1).val = (x 1).val) :
    (iblk1 V c 0 t : Vec F S128x4096 .bf16) x = (V c main_v4 : S8192x4096.Idx → Elt F .bf16) k := by
  obtain ⟨e0, e1, -⟩ := idx_facts1 t
  unfold iblk1
  rw [View.read_apply]
  show V c main_v4 _ = V c main_v4 _
  congr 1
  funext a
  apply Fin.ext
  match a with
  | ⟨0, _⟩ => show win1_0.index t (0 : Fin 2) * 128 + 1 * (x 0).val = (k 0).val; rw [e0, hk0]; omega
  | ⟨1, _⟩ => show win1_0.index t (1 : Fin 2) * 4096 + 1 * (x 1).val = (k 1).val; rw [e1, hk1]; omega

theorem iblk1_1_apply (c : Dev nD) (t : Fin cfg1.N) (x : S4096x4096.Idx) :
    (iblk1 V c 1 t : Vec F S4096x4096 .bf16) x = (V c main_v2 : S4096x4096.Idx → Elt F .bf16) x := by
  obtain ⟨-, -, e0, e1, -⟩ := idx_facts1 t
  unfold iblk1
  rw [View.read_apply]
  show V c main_v2 _ = V c main_v2 _
  congr 1
  funext a
  apply Fin.ext
  match a with
  | ⟨0, _⟩ => show win1_1.index t (0 : Fin 2) * 4096 + 1 * (x 0).val = (x 0).val; rw [e0]; omega
  | ⟨1, _⟩ => show win1_1.index t (1 : Fin 2) * 4096 + 1 * (x 1).val = (x 1).val; rw [e1]; omega

theorem iblk1_2_apply (c : Dev nD) (t : Fin cfg1.N) (x : S4096.Idx) :
    (iblk1 V c 2 t : Vec F S4096 .f32) x = (V c main_arg4 : S4096.Idx → Elt F .f32) x := by
  obtain ⟨-, -, -, -, e0, -⟩ := idx_facts1 t
  unfold iblk1
  rw [View.read_apply]
  show V c main_arg4 _ = V c main_arg4 _
  congr 1
  funext a
  apply Fin.ext
  match a with
  | ⟨0, _⟩ => show win1_2.index t (0 : Fin 1) * 4096 + 1 * (x 0).val = (x 0).val; rw [e0]; omega

theorem mem_blk1 (t : Fin cfg1.N) (i : S8192x4096.Idx) :
    i ∈ ((cfg1.win 3).blk t).view.set ↔ ∀ a : Fin 2, win1_3.index t a * S128x4096.size a ≤ (i a).val ∧ (i a).val < win1_3.index t a * S128x4096.size a + S128x4096.size a := by
  show i ∈ ((View.whole main_v5).slice (win1_3.rect t)).set ↔ _
  rw [View.set_slice_whole, Rect.mem_set_unit]
  exact Iff.rfl

theorem flushed1_eq (c : Dev nD) (G : S8192x4096.Idx → Elt F .bf16)
    (hG : ∀ (t : Fin cfg1.N) (y : S128x4096.Idx) (k : S8192x4096.Idx), (k 0).val = 128 * t.val + (y 0).val → (k 1).val = (y 1).val →
      out1_3 (iblk1 V c 0 t) (iblk1 V c 1 t) (iblk1 V c 2 t) y = G k) (t : Fin cfg1.N) :
    (dat1 V c).flushed 3 t = ((cfg1.win 3).blk t).view.read (Elt F) G := by
  obtain ⟨-, -, -, -, -, e0, e1⟩ := idx_facts1 t
  show (cfg1.win 3).cut (grid1.coords t) ((dat1 V c).after 3 t) = _
  rw [after1_3]
  funext j
  rw [View.read_apply]
  refine hG t _ _ ?_ ?_
  · show win1_3.index t (0 : Fin 2) * 128 + 1 * (j 0).val = 128 * t.val + (j 0).val; rw [e0]; omega
  · show win1_3.index t (1 : Fin 2) * 4096 + 1 * (j 1).val = (j 1).val; rw [e1]; omega

theorem final1 (c : Dev nD) (G : S8192x4096.Idx → Elt F .bf16)
    (hG : ∀ (t : Fin cfg1.N) (y : S128x4096.Idx) (k : S8192x4096.Idx), (k 0).val = 128 * t.val + (y 0).val → (k 1).val = (y 1).val →
      out1_3 (iblk1 V c 0 t) (iblk1 V c 1 t) (iblk1 V c 2 t) y = G k) :
    (dat1 V c).arrAt 3 cfg1.N = G :=
  (dat1 V c).arrAt_eq_of_cover 3 G (fun t _ => flushed1_eq V c G hG t) fun i => by
    have hi0 : (i 0).val < 8192 := (i 0).isLt
    have hi1 : (i 1).val < 4096 := (i 1).isLt
    obtain ⟨t, q0, q1⟩ := idx_onto1 ⟨(i 0).val / 128, by omega⟩
    refine ⟨t, flush1_3 t, ?_⟩
    rw [mem_blk1]
    intro a
    match a with
    | ⟨0, _⟩ => show win1_3.index t (0 : Fin 2) * 128 ≤ (i 0).val ∧ (i 0).val < win1_3.index t (0 : Fin 2) * 128 + 128; rw [q0]; show (i 0).val / 128 * 128 ≤ (i 0).val ∧ (i 0).val < (i 0).val / 128 * 128 + 128; omega
    | ⟨1, _⟩ => show win1_3.index t (1 : Fin 2) * 4096 ≤ (i 1).val ∧ (i 1).val < win1_3.index t (1 : Fin 2) * 4096 + 4096; rw [q1]; omega

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 1) = t.val :=
  (by decide +kernel : ∀ t : Fin grid2.N, _)

theorem idx_onto2 : ∀ q : Fin 8, ∃ t : Fin cfg2.N, win2_3.index t (0 : Fin 1) = q.val :=
  (by decide +kernel : ∀ q : Fin 8, ∃ t : Fin grid2.N, _)

theorem iblk2_0_apply (c : Dev nD) (t : Fin cfg2.N) (x : S1024x4096.Idx) (k : S8192x4096.Idx)
    (hk0 : (k 0).val = 1024 * t.val + (x 0).val) (hk1 : (k 1).val = (x 1).val) :
    (iblk2 V c 0 t : Vec F S1024x4096 .bf16) x = (V c main_v5 : S8192x4096.Idx → Elt F .bf16) k := by
  obtain ⟨e0, e1, -⟩ := idx_facts2 t
  unfold iblk2
  rw [View.read_apply]
  show V c main_v5 _ = V c main_v5 _
  congr 1
  funext a
  apply Fin.ext
  match a with
  | ⟨0, _⟩ => show win2_0.index t (0 : Fin 2) * 1024 + 1 * (x 0).val = (k 0).val; rw [e0, hk0]; omega
  | ⟨1, _⟩ => show win2_0.index t (1 : Fin 2) * 4096 + 1 * (x 1).val = (k 1).val; rw [e1, hk1]; omega

theorem iblk2_1_apply (c : Dev nD) (t : Fin cfg2.N) (x : S4096x10.Idx) :
    (iblk2 V c 1 t : Vec F S4096x10 .bf16) x = (V c main_v3 : S4096x10.Idx → Elt F .bf16) x := by
  obtain ⟨-, -, e0, e1, -⟩ := idx_facts2 t
  unfold iblk2
  rw [View.read_apply]
  show V c main_v3 _ = V c main_v3 _
  congr 1
  funext a
  apply Fin.ext
  match a with
  | ⟨0, _⟩ => show win2_1.index t (0 : Fin 2) * 4096 + 1 * (x 0).val = (x 0).val; rw [e0]; omega
  | ⟨1, _⟩ => show win2_1.index t (1 : Fin 2) * 10 + 1 * (x 1).val = (x 1).val; rw [e1]; omega

theorem iblk2_2_apply (c : Dev nD) (t : Fin cfg2.N) (x : S10.Idx) :
    (iblk2 V c 2 t : Vec F S10 .f32) x = (V c main_arg6 : S10.Idx → Elt F .f32) x := by
  obtain ⟨-, -, -, -, e0, -⟩ := idx_facts2 t
  unfold iblk2
  rw [View.read_apply]
  show V c main_arg6 _ = V c main_arg6 _
  congr 1
  funext a
  apply Fin.ext
  match a with
  | ⟨0, _⟩ => show win2_2.index t (0 : Fin 1) * 10 + 1 * (x 0).val = (x 0).val; rw [e0]; omega

theorem mem_blk2 (t : Fin cfg2.N) (i : S8192.Idx) :
    i ∈ ((cfg2.win 3).blk t).view.set ↔ ∀ a : Fin 1, win2_3.index t a * S1024.size a ≤ (i a).val ∧ (i a).val < win2_3.index t a * S1024.size a + S1024.size a := by
  show i ∈ ((View.whole main_v6).slice (win2_3.rect t)).set ↔ _
  rw [View.set_slice_whole, Rect.mem_set_unit]
  exact Iff.rfl

theorem flushed2_eq (c : Dev nD) (G : S8192.Idx → Elt F .f32)
    (hG : ∀ (t : Fin cfg2.N) (y : S1024.Idx) (k : S8192.Idx), (k 0).val = 1024 * t.val + (y 0).val →
      out2_3 (iblk2 V c 0 t) (iblk2 V c 1 t) (iblk2 V c 2 t) y = G k) (t : Fin cfg2.N) :
    (dat2 V c).flushed 3 t = ((cfg2.win 3).blk t).view.read (Elt F) G := by
  obtain ⟨-, -, -, -, -, e0⟩ := idx_facts2 t
  show (cfg2.win 3).cut (grid2.coords t) ((dat2 V c).after 3 t) = _
  rw [after2_3]
  funext j
  rw [View.read_apply]
  refine hG t _ _ ?_
  show win2_3.index t (0 : Fin 1) * 1024 + 1 * (j 0).val = 1024 * t.val + (j 0).val; rw [e0]; omega

theorem final2 (c : Dev nD) (G : S8192.Idx → Elt F .f32)
    (hG : ∀ (t : Fin cfg2.N) (y : S1024.Idx) (k : S8192.Idx), (k 0).val = 1024 * t.val + (y 0).val →
      out2_3 (iblk2 V c 0 t) (iblk2 V c 1 t) (iblk2 V c 2 t) y = G k) :
    (dat2 V c).arrAt 3 cfg2.N = G :=
  (dat2 V c).arrAt_eq_of_cover 3 G (fun t _ => flushed2_eq V c G hG t) fun i => by
    have hi0 : (i 0).val < 8192 := (i 0).isLt
    obtain ⟨t, q0⟩ := idx_onto2 ⟨(i 0).val / 1024, by omega⟩
    refine ⟨t, flush2_3 t, ?_⟩
    rw [mem_blk2]
    intro a
    match a with
    | ⟨0, _⟩ => show win2_3.index t (0 : Fin 1) * 1024 ≤ (i 0).val ∧ (i 0).val < win2_3.index t (0 : Fin 1) * 1024 + 1024; rw [q0]; show (i 0).val / 1024 * 1024 ≤ (i 0).val ∧ (i 0).val < (i 0).val / 1024 * 1024 + 1024; omega

end Cert.KernelIdeal.Hand

end
-- ==== Proof.SoftmaxSpec.lean ====
import Idealize.ShloMosaic.PureOps.Ideal

noncomputable section

namespace Cert.Spec

open Idealize.ShloMosaic

/-- The largest of a row's ten entries, and at least minus infinity. -/
def rowMax (L : Fin 10 → EReal) : EReal :=
  max (Ideal.ofBits .f32 0xFF800000#32) ((Finset.univ : Finset (Fin 10)).fold max (Ideal.ofBits .f32 0xFF800000#32) L)

/-- The softmax of a row of ten extended reals at class `k`. -/
def softmaxRow (L : Fin 10 → EReal) (k : Fin 10) : EReal :=
  Ideal.div (Ideal.exp (L k - rowMax L)) (∑ j : Fin 10, Ideal.exp (L j - rowMax L))

end Cert.Spec
-- ==== Proof.LibMatmul.lean ====
import Idealize.ShloMosaic.Lib.ValueIdx
import Idealize.ShloMosaic.PureOps.Ideal.Laws

noncomputable section

namespace Idealize.ShloMosaic.ValueIdx

/-- An M×K by K×N matrix product into a zero accumulator, at (p, c): the sum over the contracted index of the
    operands' products. -/
theorem matmul_plain_apply (M K N : Nat) {φ₁ φ₂ : FTy} (l : FVec Ideal ⟨2, ![M, K]⟩ φ₁) (r : FVec Ideal ⟨2, ![K, N]⟩ φ₂)
    (p : Fin M) (c : Fin N) :
    matmul (F := Ideal) (DotDims.plain M K N) none l r (constant ⟨2, ![M, N]⟩ .f32 0x00000000#32) (ix2 p c)
      = ∑ q : Fin K, l (ix2 p q) * r (ix2 q c) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

end Idealize.ShloMosaic.ValueIdx

end
-- ==== Proof.KPay.lean ====
import proofs.«149770_j20074677141979_1_alg».proof.Proof.Gen.KernelIdeal.Frame
import proofs.«149770_j20074677141979_1_alg».proof.Proof.SoftmaxSpec
import proofs.«149770_j20074677141979_1_alg».proof.Proof.LibMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

theorem matmul_k0_apply (l : FVec Ideal S512x784 .bf16) (r : FVec Ideal S784x4096 .bf16) (p : Fin 512) (c : Fin 4096) :
    matmul (F := Ideal) dot_S512x784_S784x4096_S512x4096_1_0_0_1_n_n none l r (constant S512x4096 .f32 0x00000000#32) (ix2 p c)
      = ∑ q : Fin 784, l (ix2 p q) * r (ix2 q c) :=
  matmul_plain_apply 512 784 4096 l r p c

/-- The bias, repeated down the rows, at (p, c), is the bias at c. -/
theorem bias_k0_apply (b : FVec Ideal S4096 .f32) (p : Fin 512) (c : Fin 4096) :
    broadcastTo S512x4096 (shapeCast S1x4096 b shapeCasts_S4096_S1x4096) broadcasts_S1x4096_S512x4096 (ix2 p c) = b (ix1 c) := by
  refine (broadcastTo_apply _ broadcasts_S1x4096_S512x4096 (ix2 p c) (ix2 (0 : Fin 1) c) fun a => ?_).trans ?_
  · match a with
    | ⟨0, _⟩ => rfl
    | ⟨1, _⟩ => rfl
  · refine shapeCast_apply b shapeCasts_S4096_S1x4096 (ix2 (0 : Fin 1) c) (ix1 c) ?_
    simp [Shape.rowMajor_val_one, Shape.rowMajor_val_two]

/-- The first layer's stored value at (r, cc). -/
theorem k0_pay1_apply (v0 : Vec Ideal S512x784 .bf16) (v2 : Vec Ideal S784x4096 .bf16) (v5 : Vec Ideal S4096 .f32) (r : Fin 512) (cc : Fin 4096) :
    k0_pay1 (F := Ideal) v0 v2 v5 (ix2 r cc)
      = max ((∑ q : Fin 784, (v0 (ix2 r q) : EReal) * (v2 (ix2 q cc) : EReal)) + (v5 (ix1 cc) : EReal)) (Ideal.ofBits .f32 0x00000000#32) := by
  unfold k0_pay1
  simp only [shapeCast_self]
  rw [truncf_apply, maximumf_apply, addf_apply, broadcast_apply, matmul_k0_apply, bias_k0_apply]
  rfl

theorem out0_3_apply (x0 : Vec Ideal S512x784 .bf16) (x1 : Vec Ideal S784x4096 .bf16) (x2 : Vec Ideal S4096 .f32) (r : Fin 512) (cc : Fin 4096) :
    out0_3 x0 x1 x2 (ix2 r cc)
      = max ((∑ q : Fin 784, (x0 (ix2 r q) : EReal) * (x1 (ix2 q cc) : EReal)) + (x2 (ix1 cc) : EReal)) (Ideal.ofBits .f32 0x00000000#32) := by
  have hz : (![0, 0] : Fin 2 → Nat) = fun _ => 0 := by funext a; match a with | ⟨0, _⟩ => rfl | ⟨1, _⟩ => rfl
  have hz1 : (![0] : Fin 1 → Nat) = fun _ => 0 := by funext a; match a with | ⟨0, _⟩ => rfl
  unfold out0_3
  rw [View.canon_unit_zero hz]
  simp only [View.ld_unit_zero (S := S512x784) hz, View.ld_unit_zero (S := S784x4096) hz, View.ld_unit_zero (S := S4096) hz1]
  exact k0_pay1_apply x0 x1 x2 r cc

theorem matmul_k1_apply (l : FVec Ideal S128x4096 .bf16) (r : FVec Ideal S4096x4096 .bf16) (p : Fin 128) (c : Fin 4096) :
    matmul (F := Ideal) dot_S128x4096_S4096x4096_S128x4096_1_0_0_1_n_n none l r (constant S128x4096 .f32 0x00000000#32) (ix2 p c)
      = ∑ q : Fin 4096, l (ix2 p q) * r (ix2 q c) :=
  matmul_plain_apply 128 4096 4096 l r p c

theorem bias_k1_apply (b : FVec Ideal S4096 .f32) (p : Fin 128) (c : Fin 4096) :
    broadcastTo S128x4096 (shapeCast S1x4096 b shapeCasts_S4096_S1x4096) broadcasts_S1x4096_S128x4096 (ix2 p c) = b (ix1 c) := by
  refine (broadcastTo_apply _ broadcasts_S1x4096_S128x4096 (ix2 p c) (ix2 (0 : Fin 1) c) fun a => ?_).trans ?_
  · match a with
    | ⟨0, _⟩ => rfl
    | ⟨1, _⟩ => rfl
  · refine shapeCast_apply b shapeCasts_S4096_S1x4096 (ix2 (0 : Fin 1) c) (ix1 c) ?_
    simp [Shape.rowMajor_val_one, Shape.rowMajor_val_two]

/-- The second layer's stored value at (r, cc). -/
theorem k1_pay1_apply (v0 : Vec Ideal S128x4096 .bf16) (v2 : Vec Ideal S4096x4096 .bf16) (v5 : Vec Ideal S4096 .f32) (r : Fin 128) (cc : Fin 4096) :
    k1_pay1 (F := Ideal) v0 v2 v5 (ix2 r cc)
      = max ((∑ q : Fin 4096, (v0 (ix2 r q) : EReal) * (v2 (ix2 q cc) : EReal)) + (v5 (ix1 cc) : EReal)) (Ideal.ofBits .f32 0x00000000#32) := by
  unfold k1_pay1
  simp only [shapeCast_self]
  rw [truncf_apply, maximumf_apply, addf_apply, broadcast_apply, matmul_k1_apply, bias_k1_apply]
  rfl

theorem out1_3_apply (x0 : Vec Ideal S128x4096 .bf16) (x1 : Vec Ideal S4096x4096 .bf16) (x2 : Vec Ideal S4096 .f32) (r : Fin 128) (cc : Fin 4096) :
    out1_3 x0 x1 x2 (ix2 r cc)
      = max ((∑ q : Fin 4096, (x0 (ix2 r q) : EReal) * (x1 (ix2 q cc) : EReal)) + (x2 (ix1 cc) : EReal)) (Ideal.ofBits .f32 0x00000000#32) := by
  have hz : (![0, 0] : Fin 2 → Nat) = fun _ => 0 := by funext a; match a with | ⟨0, _⟩ => rfl | ⟨1, _⟩ => rfl
  have hz1 : (![0] : Fin 1 → Nat) = fun _ => 0 := by funext a; match a with | ⟨0, _⟩ => rfl
  unfold out1_3
  rw [View.canon_unit_zero hz]
  simp only [View.ld_unit_zero (S := S128x4096) hz, View.ld_unit_zero (S := S4096x4096) hz, View.ld_unit_zero (S := S4096) hz1]
  exact k1_pay1_apply x0 x1 x2 r cc

theorem matmul_k2_apply (l : FVec Ideal S1024x4096 .bf16) (r : FVec Ideal S4096x10 .bf16) (p : Fin 1024) (c : Fin 10) :
    matmul (F := Ideal) dot_S1024x4096_S4096x10_S1024x10_1_0_0_1_n_n none l r (constant S1024x10 .f32 0x00000000#32) (ix2 p c)
      = ∑ q : Fin 4096, l (ix2 p q) * r (ix2 q c) :=
  matmul_plain_apply 1024 4096 10 l r p c

theorem bias_k2_apply (b : FVec Ideal S10 .f32) (p : Fin 1024) (c : Fin 10) :
    broadcastTo S1024x10 (shapeCast S1x10 b shapeCasts_S10_S1x10) broadcasts_S1x10_S1024x10 (ix2 p c) = b (ix1 c) := by
  refine (broadcastTo_apply _ broadcasts_S1x10_S1024x10 (ix2 p c) (ix2 (0 : Fin 1) c) fun a => ?_).trans ?_
  · match a with
    | ⟨0, _⟩ => rfl
    | ⟨1, _⟩ => rfl
  · refine shapeCast_apply b shapeCasts_S10_S1x10 (ix2 (0 : Fin 1) c) (ix1 c) ?_
    simp [Shape.rowMajor_val_one, Shape.rowMajor_val_two]

theorem col_k2_apply (w : FVec Ideal S1024 .f32) (p : Fin 1024) (c : Fin 10) :
    broadcastTo S1024x10 (shapeCast S1024x1 w shapeCasts_S1024_S1024x1) broadcasts_S1024x1_S1024x10 (ix2 p c) = w (ix1 p) := by
  refine (broadcastTo_apply _ broadcasts_S1024x1_S1024x10 (ix2 p c) (ix2 p (0 : Fin 1)) fun a => ?_).trans ?_
  · match a with
    | ⟨0, _⟩ => rfl
    | ⟨1, _⟩ => rfl
  · refine shapeCast_apply w shapeCasts_S1024_S1024x1 (ix2 p (0 : Fin 1)) (ix1 p) ?_
    simp [Shape.rowMajor_val_one, Shape.rowMajor_val_two]

theorem lift_k2 (p : Fin 1024) (k : Fin 10) : reduces_S1024x10_S1024.lift (ix1 p) k = ix2 p k :=
  funext fun a => Fin.ext (by
    match a with
    | ⟨0, _⟩ => rfl
    | ⟨1, _⟩ => rfl)

theorem lanemax_k2_apply (X : FVec Ideal S1024x10 .f32) (hφ : FKind.Formats (.f32 : FTy)) (hacc : (0xFF800000#32 : BitVec 32) = 0xFF800000#32) (p : Fin 1024) :
    multiReduction (F := Ideal) .maximumf [1] S1024 X 0xFF800000#32 reduces_S1024x10_S1024 hφ hacc (ix1 p)
      = (Finset.univ : Finset (Fin 10)).fold max (Ideal.ofBits .f32 0xFF800000#32) (fun j => X (ix2 p j)) := by
  refine (Ideal.multiReduction_maximumf_single X 0xFF800000#32 reduces_S1024x10_S1024 hφ hacc (ix1 p)).trans ?_
  refine Finset.fold_congr fun k _ => ?_
  exact congrArg X (lift_k2 p k)

theorem lanesum_k2_apply (X : FVec Ideal S1024x10 .f32) (hφ : FKind.Formats (.f32 : FTy)) (hacc : (0x00000000#32 : BitVec 32) = 0x00000000#32) (p : Fin 1024) :
    multiReduction (F := Ideal) .add [1] S1024 X 0x00000000#32 reduces_S1024x10_S1024 hφ hacc (ix1 p)
      = ∑ j : Fin 10, X (ix2 p j) := by
  refine (Ideal.multiReduction_add_single X 0x00000000#32 reduces_S1024x10_S1024 hφ hacc (ix1 p)).trans ?_
  refine Finset.sum_congr rfl fun k _ => ?_
  exact congrArg X (lift_k2 p k)

def logits2 (v0 : Vec Ideal S1024x4096 .bf16) (v2 : Vec Ideal S4096x10 .bf16) (v5 : Vec Ideal S10 .f32) : FVec Ideal S1024x10 .f32 :=
  addf (matmul dot_S1024x4096_S4096x10_S1024x10_1_0_0_1_n_n none (shapeCast S1024x4096 v0 shapeCasts_S1024x4096_S1024x4096 : FVec Ideal S1024x4096 .bf16) (shapeCast S4096x10 v2 shapeCasts_S4096x10_S4096x10 : FVec Ideal S4096x10 .bf16) (constant S1024x10 .f32 0x00000000#32))
    (broadcastTo S1024x10 (shapeCast S1x10 v5 shapeCasts_S10_S1x10) broadcasts_S1x10_S1024x10)

theorem logits2_apply (v0 : Vec Ideal S1024x4096 .bf16) (v2 : Vec Ideal S4096x10 .bf16) (v5 : Vec Ideal S10 .f32) (r : Fin 1024) (j : Fin 10) :
    logits2 v0 v2 v5 (ix2 r j) = (∑ q : Fin 4096, (v0 (ix2 r q) : EReal) * (v2 (ix2 q j) : EReal)) + (v5 (ix1 j) : EReal) := by
  unfold logits2
  simp only [shapeCast_self]
  rw [addf_apply, matmul_k2_apply, bias_k2_apply]

theorem exp_apply {s : Shape} {φ : FTy} (a : FVec Ideal s φ) (i : s.Idx) : exp a i = Ideal.exp (a i) := rfl

def softmax2 (X : FVec Ideal S1024x10 .f32) : FVec Ideal S1024x10 .f32 :=
  have v9 : FVec Ideal S1024 .f32 := multiReduction .maximumf [1] S1024 X 0xFF800000#32 reduces_S1024x10_S1024 (.inl rfl) rfl
  have cst_5 : Ideal .f32 := Scalar.ofBits .f32 0xFF800000#32
  have v10 : FVec Ideal S1024 .f32 := broadcast S1024 cst_5
  have v11 : FVec Ideal S1024 .f32 := maximumf v10 v9
  have v12 : FVec Ideal S1024x1 .f32 := shapeCast S1024x1 v11 shapeCasts_S1024_S1024x1
  have v13 : FVec Ideal S1024x10 .f32 := broadcastTo S1024x10 v12 broadcasts_S1024x1_S1024x10
  have v14 : FVec Ideal S1024x10 .f32 := subf X v13
  have v15 : FVec Ideal S1024x10 .f32 := exp v14
  have v16 : FVec Ideal S1024 .f32 := multiReduction .add [1] S1024 v15 0x00000000#32 reduces_S1024x10_S1024 (.inl rfl) rfl
  have v17 : FVec Ideal S1024x1 .f32 := shapeCast S1024x1 v16 shapeCasts_S1024_S1024x1
  have v18 : FVec Ideal S1024x10 .f32 := broadcastTo S1024x10 v17 broadcasts_S1024x1_S1024x10
  divf v15 v18

theorem k2_pay5_eq (v0 : Vec Ideal S1024x4096 .bf16) (v2 : Vec Ideal S4096x10 .bf16) (v5 : Vec Ideal S10 .f32) :
    k2_pay5 (F := Ideal) v0 v2 v5 = softmax2 (logits2 v0 v2 v5) := rfl

/-- The body's softmax of a [1024, 10] array, at (r, k), is the softmax of row r. -/
theorem softmax2_apply (X : FVec Ideal S1024x10 .f32) (r : Fin 1024) (k : Fin 10) :
    softmax2 X (ix2 r k) = Cert.Spec.softmaxRow (fun j => X (ix2 r j)) k := by
  have hm : ∀ c : Fin 10, broadcastTo S1024x10 (shapeCast S1024x1 (maximumf (broadcast S1024 (Scalar.ofBits (F := Ideal) .f32 0xFF800000#32)) (multiReduction (F := Ideal) .maximumf [1] S1024 X 0xFF800000#32 reduces_S1024x10_S1024 (.inl rfl) rfl)) shapeCasts_S1024_S1024x1) broadcasts_S1024x1_S1024x10 (ix2 r c)
      = Cert.Spec.rowMax (fun j => X (ix2 r j)) := fun c => by
    rw [col_k2_apply, maximumf_apply, broadcast_apply, lanemax_k2_apply]
    rfl
  unfold softmax2 Cert.Spec.softmaxRow
  simp only []
  rw [divf_apply, col_k2_apply, lanesum_k2_apply]
  simp only [exp_apply, subf_apply, hm]

/-- The third layer's probabilities at (r, k): the softmax of the row of logits. -/
theorem k2_pay5_apply (v0 : Vec Ideal S1024x4096 .bf16) (v2 : Vec Ideal S4096x10 .bf16) (v5 : Vec Ideal S10 .f32) (r : Fin 1024) (k : Fin 10) :
    k2_pay5 (F := Ideal) v0 v2 v5 (ix2 r k)
      = Cert.Spec.softmaxRow (fun j => (∑ q : Fin 4096, (v0 (ix2 r q) : EReal) * (v2 (ix2 q j) : EReal)) + (v5 (ix1 j) : EReal)) k := by
  rw [k2_pay5_eq, softmax2_apply]
  simp only [logits2_apply]

/-- Column `k` of a [1024, 10] array cut out as a [1024, 1] array, at row `r`, is the array at (r, k). -/
theorem slice_apply (X : FVec Ideal S1024x10 .f32) (off : Fin S1024x10.rank → Nat) (h : S1024x10.Slices off S1024x1) (k : Fin 10)
    (h0 : off 0 = 0) (h1 : off 1 = k.val) (r : Fin 1024) :
    extractStridedSlice S1024x1 off X h (ix2 r (0 : Fin 1)) = X (ix2 r k) :=
  extractStridedSlice_apply off X h (ix2 r (0 : Fin 1)) (ix2 r k) fun a => match a with
    | ⟨0, _⟩ => by show r.val = off 0 + r.val; rw [h0]; omega
    | ⟨1, _⟩ => by show k.val = off 1 + 0; rw [h1]; omega

theorem k2_pay6_apply (v0 : Vec Ideal S1024x4096 .bf16) (v2 : Vec Ideal S4096x10 .bf16) (v5 : Vec Ideal S10 .f32) (r : Fin 1024) :
    k2_pay6 (F := Ideal) v0 v2 v5 (ix2 r (0 : Fin 1)) = k2_pay5 (F := Ideal) v0 v2 v5 (ix2 r (0 : Fin 10)) := by
  unfold k2_pay6
  exact slice_apply _ _ _ 0 rfl rfl r

theorem k2_pay7_apply (v0 : Vec Ideal S1024x4096 .bf16) (v2 : Vec Ideal S4096x10 .bf16) (v5 : Vec Ideal S10 .f32) (r : Fin 1024) :
    k2_pay7 (F := Ideal) v0 v2 v5 (ix2 r (0 : Fin 1)) = k2_pay5 (F := Ideal) v0 v2 v5 (ix2 r (1 : Fin 10)) := by
  unfold k2_pay7
  exact slice_apply _ _ _ 1 rfl rfl r

theorem k2_pay8_apply (v0 : Vec Ideal S1024x4096 .bf16) (v2 : Vec Ideal S4096x10 .bf16) (v5 : Vec Ideal S10 .f32) (r : Fin 1024) :
    k2_pay8 (F := Ideal) v0 v2 v5 (ix2 r (0 : Fin 1)) = k2_pay5 (F := Ideal) v0 v2 v5 (ix2 r (2 : Fin 10)) := by
  unfold k2_pay8
  exact slice_apply _ _ _ 2 rfl rfl r

theorem k2_pay9_apply (v0 : Vec Ideal S1024x4096 .bf16) (v2 : Vec Ideal S4096x10 .bf16) (v5 : Vec Ideal S10 .f32) (r : Fin 1024) :
    k2_pay9 (F := Ideal) v0 v2 v5 (ix2 r (0 : Fin 1)) = k2_pay5 (F := Ideal) v0 v2 v5 (ix2 r (3 : Fin 10)) := by
  unfold k2_pay9
  exact slice_apply _ _ _ 3 rfl rfl r

theorem k2_pay10_apply (v0 : Vec Ideal S1024x4096 .bf16) (v2 : Vec Ideal S4096x10 .bf16) (v5 : Vec Ideal S10 .f32) (r : Fin 1024) :
    k2_pay10 (F := Ideal) v0 v2 v5 (ix2 r (0 : Fin 1)) = k2_pay5 (F := Ideal) v0 v2 v5 (ix2 r (4 : Fin 10)) := by
  unfold k2_pay10
  exact slice_apply _ _ _ 4 rfl rfl r

theorem k2_pay11_apply (v0 : Vec Ideal S1024x4096 .bf16) (v2 : Vec Ideal S4096x10 .bf16) (v5 : Vec Ideal S10 .f32) (r : Fin 1024) :
    k2_pay11 (F := Ideal) v0 v2 v5 (ix2 r (0 : Fin 1)) = k2_pay5 (F := Ideal) v0 v2 v5 (ix2 r (5 : Fin 10)) := by
  unfold k2_pay11
  exact slice_apply _ _ _ 5 rfl rfl r

theorem k2_pay12_apply (v0 : Vec Ideal S1024x4096 .bf16) (v2 : Vec Ideal S4096x10 .bf16) (v5 : Vec Ideal S10 .f32) (r : Fin 1024) :
    k2_pay12 (F := Ideal) v0 v2 v5 (ix2 r (0 : Fin 1)) = k2_pay5 (F := Ideal) v0 v2 v5 (ix2 r (6 : Fin 10)) := by
  unfold k2_pay12
  exact slice_apply _ _ _ 6 rfl rfl r

theorem k2_pay13_apply (v0 : Vec Ideal S1024x4096 .bf16) (v2 : Vec Ideal S4096x10 .bf16) (v5 : Vec Ideal S10 .f32) (r : Fin 1024) :
    k2_pay13 (F := Ideal) v0 v2 v5 (ix2 r (0 : Fin 1)) = k2_pay5 (F := Ideal) v0 v2 v5 (ix2 r (7 : Fin 10)) := by
  unfold k2_pay13
  exact slice_apply _ _ _ 7 rfl rfl r

theorem k2_pay14_apply (v0 : Vec Ideal S1024x4096 .bf16) (v2 : Vec Ideal S4096x10 .bf16) (v5 : Vec Ideal S10 .f32) (r : Fin 1024) :
    k2_pay14 (F := Ideal) v0 v2 v5 (ix2 r (0 : Fin 1)) = k2_pay5 (F := Ideal) v0 v2 v5 (ix2 r (8 : Fin 10)) := by
  unfold k2_pay14
  exact slice_apply _ _ _ 8 rfl rfl r

theorem k2_pay15_apply (v0 : Vec Ideal S1024x4096 .bf16) (v2 : Vec Ideal S4096x10 .bf16) (v5 : Vec Ideal S10 .f32) (r : Fin 1024) :
    k2_pay15 (F := Ideal) v0 v2 v5 (ix2 r (0 : Fin 1)) = k2_pay5 (F := Ideal) v0 v2 v5 (ix2 r (9 : Fin 10)) := by
  unfold k2_pay15
  exact slice_apply _ _ _ 9 rfl rfl r

theorem k2_pay16_apply (v0 : Vec Ideal S1024x4096 .bf16) (v2 : Vec Ideal S4096x10 .bf16) (v5 : Vec Ideal S10 .f32) (r : Fin 1024) :
    k2_pay16 (F := Ideal) v0 v2 v5 (ix2 r (0 : Fin 1))
      = Ideal.ofBits .f32 0x3F800000#32 - k2_pay5 (F := Ideal) v0 v2 v5 (ix2 r (0 : Fin 10)) := by
  unfold k2_pay16
  rw [subf_apply, broadcast_apply, slice_apply _ ![0, 0] _ 0 rfl rfl]
  rfl

theorem k2_pay17_apply (v0 : Vec Ideal S1024x4096 .bf16) (v2 : Vec Ideal S4096x10 .bf16) (v5 : Vec Ideal S10 .f32) (r : Fin 1024) :
    k2_pay17 (F := Ideal) v0 v2 v5 (ix2 r (0 : Fin 1))
      = Ideal.ofBits .f32 0x3F800000#32 - k2_pay5 (F := Ideal) v0 v2 v5 (ix2 r (1 : Fin 10)) := by
  unfold k2_pay17
  rw [subf_apply, broadcast_apply, slice_apply _ ![0, 1] _ 1 rfl rfl]
  rfl

theorem k2_pay18_apply (v0 : Vec Ideal S1024x4096 .bf16) (v2 : Vec Ideal S4096x10 .bf16) (v5 : Vec Ideal S10 .f32) (r : Fin 1024) :
    k2_pay18 (F := Ideal) v0 v2 v5 (ix2 r (0 : Fin 1))
      = Ideal.ofBits .f32 0x3F800000#32 - k2_pay5 (F := Ideal) v0 v2 v5 (ix2 r (2 : Fin 10)) := by
  unfold k2_pay18
  rw [subf_apply, broadcast_apply, slice_apply _ ![0, 2] _ 2 rfl rfl]
  rfl

theorem k2_pay19_apply (v0 : Vec Ideal S1024x4096 .bf16) (v2 : Vec Ideal S4096x10 .bf16) (v5 : Vec Ideal S10 .f32) (r : Fin 1024) :
    k2_pay19 (F := Ideal) v0 v2 v5 (ix2 r (0 : Fin 1))
      = Ideal.ofBits .f32 0x3F800000#32 - k2_pay5 (F := Ideal) v0 v2 v5 (ix2 r (3 : Fin 10)) := by
  unfold k2_pay19
  rw [subf_apply, broadcast_apply, slice_apply _ ![0, 3] _ 3 rfl rfl]
  rfl

theorem k2_pay20_apply (v0 : Vec Ideal S1024x4096 .bf16) (v2 : Vec Ideal S4096x10 .bf16) (v5 : Vec Ideal S10 .f32) (r : Fin 1024) :
    k2_pay20 (F := Ideal) v0 v2 v5 (ix2 r (0 : Fin 1))
      = Ideal.ofBits .f32 0x3F800000#32 - k2_pay5 (F := Ideal) v0 v2 v5 (ix2 r (4 : Fin 10)) := by
  unfold k2_pay20
  rw [subf_apply, broadcast_apply, slice_apply _ ![0, 4] _ 4 rfl rfl]
  rfl

theorem k2_pay21_apply (v19 : FVec Ideal S1024x10 .f32) (r : Fin 1024) :
    k2_pay21 (F := Ideal) v19 (ix2 r (0 : Fin 1))
      = Ideal.ofBits .f32 0x3F800000#32 - v19 (ix2 r (5 : Fin 10)) := by
  unfold k2_pay21
  rw [subf_apply, broadcast_apply, slice_apply _ ![0, 5] _ 5 rfl rfl]
  rfl

theorem k2_pay22_apply (v19 : FVec Ideal S1024x10 .f32) (r : Fin 1024) :
    k2_pay22 (F := Ideal) v19 (ix2 r (0 : Fin 1))
      = Ideal.ofBits .f32 0x3F800000#32 - v19 (ix2 r (6 : Fin 10)) := by
  unfold k2_pay22
  rw [subf_apply, broadcast_apply, slice_apply _ ![0, 6] _ 6 rfl rfl]
  rfl

theorem k2_pay23_apply (v19 : FVec Ideal S1024x10 .f32) (r : Fin 1024) :
    k2_pay23 (F := Ideal) v19 (ix2 r (0 : Fin 1))
      = Ideal.ofBits .f32 0x3F800000#32 - v19 (ix2 r (7 : Fin 10)) := by
  unfold k2_pay23
  rw [subf_apply, broadcast_apply, slice_apply _ ![0, 7] _ 7 rfl rfl]
  rfl

theorem k2_pay24_apply (v19 : FVec Ideal S1024x10 .f32) (r : Fin 1024) :
    k2_pay24 (F := Ideal) v19 (ix2 r (0 : Fin 1))
      = Ideal.ofBits .f32 0x3F800000#32 - v19 (ix2 r (8 : Fin 10)) := by
  unfold k2_pay24
  rw [subf_apply, broadcast_apply, slice_apply _ ![0, 8] _ 8 rfl rfl]
  rfl

theorem k2_pay25_apply (v19 : FVec Ideal S1024x10 .f32) (r : Fin 1024) :
    k2_pay25 (F := Ideal) v19 (ix2 r (0 : Fin 1))
      = Ideal.ofBits .f32 0x3F800000#32 - v19 (ix2 r (9 : Fin 10)) := by
  unfold k2_pay25
  rw [subf_apply, broadcast_apply, slice_apply _ ![0, 9] _ 9 rfl rfl]
  rfl

end Cert.KernelIdeal.Hand
-- ==== Proof.RefRead.lean ====
import proofs.«149770_j20074677141979_1_alg».proof.Proof.RefStages
import proofs.«149770_j20074677141979_1_alg».proof.Proof.SoftmaxSpec
import Idealize.ShloMosaic.Lib.ValueIdx
import Idealize.ShloMosaic.PureOps.Ideal.Laws

noncomputable section

namespace Cert.ReferenceIdeal.Hand

open Cert.ReferenceIdeal Cert.ReferenceIdeal.Gen Cert.ReferenceIdeal.ReadP Idealize.ShloMosaic Idealize.ShloMosaic.ValueIdx

theorem lidx_v0_ix (R : Fin 8192) (cc : Fin 4096) (q : Fin 784) : lidx_main_v0 (ix2 R cc) q = ix2 R q :=
  funext fun a => Fin.ext (by match a with | ⟨0, _⟩ => rfl | ⟨1, _⟩ => rfl)
theorem ridx_v0_ix (R : Fin 8192) (cc : Fin 4096) (q : Fin 784) : ridx_main_v0 (ix2 R cc) q = ix2 q cc :=
  funext fun a => Fin.ext (by match a with | ⟨0, _⟩ => rfl | ⟨1, _⟩ => rfl)
theorem idx_v1_v2_ix (R : Fin 8192) (cc : Fin 4096) : idx_main_v1 (idx_main_v2 (ix2 R cc)) = ix1 cc :=
  funext fun a => Fin.ext (by match a with | ⟨0, _⟩ => rfl)
theorem lidx_v5_ix (R : Fin 8192) (cc : Fin 4096) (q : Fin 4096) : lidx_main_v5 (ix2 R cc) q = ix2 R q :=
  funext fun a => Fin.ext (by match a with | ⟨0, _⟩ => rfl | ⟨1, _⟩ => rfl)
theorem ridx_v5_ix (R : Fin 8192) (cc : Fin 4096) (q : Fin 4096) : ridx_main_v5 (ix2 R cc) q = ix2 q cc :=
  funext fun a => Fin.ext (by match a with | ⟨0, _⟩ => rfl | ⟨1, _⟩ => rfl)
theorem idx_v6_v7_ix (R : Fin 8192) (cc : Fin 4096) : idx_main_v6 (idx_main_v7 (ix2 R cc)) = ix1 cc :=
  funext fun a => Fin.ext (by match a with | ⟨0, _⟩ => rfl)

/-- The first hidden layer at (R, cc): row R of the input against column cc of the weights, plus the bias, cut at zero. -/
theorem ref_h1_apply (x0 : (⟨S8192x784, .f32⟩ : BufTy).Contents (Elt Ideal)) (x1 : (⟨S784x4096, .f32⟩ : BufTy).Contents (Elt Ideal))
    (x2 : (⟨S4096, .f32⟩ : BufTy).Contents (Elt Ideal)) (R : Fin 8192) (cc : Fin 4096) :
    val_main_v4 (F := Ideal) x0 x1 x2 (ix2 R cc)
      = max ((∑ q : Fin 784, x0 (ix2 R q) * x1 (ix2 q cc)) + x2 (ix1 cc)) (Ideal.ofBits .f32 0x00000000#32) := by
  rw [val_main_v4_apply, val_main_v3_apply, val_main_v0_apply, val_main_v2_apply, val_main_v1_apply,
    val_main_call0_v0_apply, val_main_call0_cst_apply]
  simp only [Ideal.addf_def, Ideal.maximumf_def, Ideal.ofBits_def, lidx_v0_ix, ridx_v0_ix, idx_v1_v2_ix]

/-- The second hidden layer at (R, cc), likewise over the first. -/
theorem ref_h2_apply (x0 : (⟨S8192x784, .f32⟩ : BufTy).Contents (Elt Ideal)) (x1 : (⟨S784x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (R : Fin 8192) (cc : Fin 4096) :
    val_main_v9 (F := Ideal) x0 x1 x2 x3 x4 (ix2 R cc)
      = max ((∑ q : Fin 4096, val_main_v4 (F := Ideal) x0 x1 x2 (ix2 R q) * x3 (ix2 q cc)) + x4 (ix1 cc))
          (Ideal.ofBits .f32 0x00000000#32) := by
  rw [val_main_v9_apply, val_main_v8_apply, val_main_v5_apply, val_main_v7_apply, val_main_v6_apply,
    val_main_call1_v0_apply, val_main_call1_cst_apply]
  simp only [Ideal.addf_def, Ideal.maximumf_def, Ideal.ofBits_def, lidx_v5_ix, ridx_v5_ix, idx_v6_v7_ix]

theorem lidx_v10_ix (R : Fin 8192) (j : Fin 10) (q : Fin 4096) : lidx_main_v10 (ix2 R j) q = ix2 R q :=
  funext fun a => Fin.ext (by match a with | ⟨0, _⟩ => rfl | ⟨1, _⟩ => rfl)
theorem ridx_v10_ix (R : Fin 8192) (j : Fin 10) (q : Fin 4096) : ridx_main_v10 (ix2 R j) q = ix2 q j :=
  funext fun a => Fin.ext (by match a with | ⟨0, _⟩ => rfl | ⟨1, _⟩ => rfl)
theorem idx_v11_v12_ix (R : Fin 8192) (j : Fin 10) : idx_main_v11 (idx_main_v12 (ix2 R j)) = ix1 j :=
  funext fun a => Fin.ext (by match a with | ⟨0, _⟩ => rfl)
theorem idx_v17_v18_ix (R : Fin 8192) (j : Fin 10) : idx_main_v17 (idx_main_v18 (ix2 R j)) = ix1 R :=
  funext fun a => Fin.ext (by match a with | ⟨0, _⟩ => rfl)
theorem idx_v22_v23_ix (R : Fin 8192) (j : Fin 10) : idx_main_v22 (idx_main_v23 (ix2 R j)) = ix1 R :=
  funext fun a => Fin.ext (by match a with | ⟨0, _⟩ => rfl)
theorem idx_v21_ix (R : Fin 8192) (j : Fin 10) : idx_main_v21 (ix1 R) j = ix2 R j :=
  funext fun a => Fin.ext (by match a with | ⟨0, _⟩ => rfl | ⟨1, _⟩ => rfl)

/-- The logit of row R, class j. -/
theorem ref_logits_apply (x0 : (⟨S8192x784, .f32⟩ : BufTy).Contents (Elt Ideal)) (x1 : (⟨S784x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (x5 : (⟨S4096x10, .f32⟩ : BufTy).Contents (Elt Ideal))
    (x6 : (⟨S10, .f32⟩ : BufTy).Contents (Elt Ideal)) (R : Fin 8192) (j : Fin 10) :
    val_main_v13 (F := Ideal) x0 x1 x2 x3 x4 x5 x6 (ix2 R j)
      = (∑ q : Fin 4096, val_main_v9 (F := Ideal) x0 x1 x2 x3 x4 (ix2 R q) * x5 (ix2 q j)) + x6 (ix1 j) := by
  rw [val_main_v13_apply, val_main_v10_apply, val_main_v12_apply, val_main_v11_apply]
  simp only [Ideal.addf_def, lidx_v10_ix, ridx_v10_ix, idx_v11_v12_ix]

theorem lift_row (h : S8192x10.Reduces [1] S8192) (R : Fin 8192) (k : Fin (S8192x10.size 1)) :
    h.lift (ix1 R) k = ix2 R (⟨k.val, k.isLt⟩ : Fin 10) :=
  funext fun c => Fin.ext (by match c with | ⟨0, _⟩ => rfl | ⟨1, _⟩ => rfl)

/-- A maximum over the class axis from minus infinity, at row R, is the fold of `max` over the row. -/
theorem hostMax_row (y : FVec Ideal S8192x10 .f32) (R : Fin 8192) :
    Host.reduce (FloatOps.maximumf (F := Ideal) (φ := .f32)) y (val_main_cst (F := Ideal)) reducesTo_S8192x10_S8192_d1 h_S_ (ix1 R)
      = (Finset.univ : Finset (Fin 10)).fold max (Ideal.ofBits .f32 0xFF800000#32) (fun j => y (ix2 R j)) := by
  have h : S8192x10.Reduces [1] S8192 := by decide
  refine (Host.reduce_eq_fold_single (α := Ideal .f32) (FloatOps.maximumf (F := Ideal) (φ := .f32)) y (val_main_cst (F := Ideal))
    reducesTo_S8192x10_S8192_d1 h h_S_ (ix1 R)).trans ?_
  have hf : (y ∘ h.lift (ix1 R)) = fun j : Fin 10 => y (ix2 R j) := funext fun k => congrArg y (lift_row h R k)
  exact congrArg (fun f => Finset.fold max (Ideal.ofBits .f32 0xFF800000#32) f (Finset.univ : Finset (Fin 10))) hf

theorem ref_rowmax_apply (x0 : (⟨S8192x784, .f32⟩ : BufTy).Contents (Elt Ideal)) (x1 : (⟨S784x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (x5 : (⟨S4096x10, .f32⟩ : BufTy).Contents (Elt Ideal))
    (x6 : (⟨S10, .f32⟩ : BufTy).Contents (Elt Ideal)) (R : Fin 8192) :
    val_main_v16 (F := Ideal) x0 x1 x2 x3 x4 x5 x6 (ix1 R)
      = Cert.Spec.rowMax (fun j => val_main_v13 (F := Ideal) x0 x1 x2 x3 x4 x5 x6 (ix2 R j)) := by
  rw [val_main_v16_apply, val_main_v15_apply, val_main_cst_0_apply]
  unfold val_main_v14
  exact congrArg (max (Ideal.ofBits .f32 0xFF800000#32)) (hostMax_row _ R)

theorem ref_exp_apply (x0 : (⟨S8192x784, .f32⟩ : BufTy).Contents (Elt Ideal)) (x1 : (⟨S784x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (x5 : (⟨S4096x10, .f32⟩ : BufTy).Contents (Elt Ideal))
    (x6 : (⟨S10, .f32⟩ : BufTy).Contents (Elt Ideal)) (R : Fin 8192) (j : Fin 10) :
    val_main_v20 (F := Ideal) x0 x1 x2 x3 x4 x5 x6 (ix2 R j)
      = Ideal.exp (val_main_v13 (F := Ideal) x0 x1 x2 x3 x4 x5 x6 (ix2 R j)
          - Cert.Spec.rowMax (fun j' => val_main_v13 (F := Ideal) x0 x1 x2 x3 x4 x5 x6 (ix2 R j'))) := by
  rw [val_main_v20_apply, val_main_v19_apply, val_main_v18_apply, val_main_v17_apply, idx_v17_v18_ix, ref_rowmax_apply]
  simp only [Ideal.hostUnary_exp_def, Ideal.subf_def]

theorem ref_expsum_apply (x0 : (⟨S8192x784, .f32⟩ : BufTy).Contents (Elt Ideal)) (x1 : (⟨S784x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (x5 : (⟨S4096x10, .f32⟩ : BufTy).Contents (Elt Ideal))
    (x6 : (⟨S10, .f32⟩ : BufTy).Contents (Elt Ideal)) (R : Fin 8192) :
    val_main_v21 (F := Ideal) x0 x1 x2 x3 x4 x5 x6 (ix1 R)
      = ∑ j : Fin 10, val_main_v20 (F := Ideal) x0 x1 x2 x3 x4 x5 x6 (ix2 R j) := by
  rw [val_main_v21_apply, val_main_cst_1_apply, Ideal.ofBits_def, Ideal.ofBits_zero_f32, zero_add]
  simp only [idx_v21_ix]

/-- The probabilities at (R, k) are the softmax of row R's logits. -/
theorem ref_probs_apply (x0 : (⟨S8192x784, .f32⟩ : BufTy).Contents (Elt Ideal)) (x1 : (⟨S784x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (x5 : (⟨S4096x10, .f32⟩ : BufTy).Contents (Elt Ideal))
    (x6 : (⟨S10, .f32⟩ : BufTy).Contents (Elt Ideal)) (R : Fin 8192) (k : Fin 10) :
    val_main_v24 (F := Ideal) x0 x1 x2 x3 x4 x5 x6 (ix2 R k)
      = Cert.Spec.softmaxRow (fun j => (∑ q : Fin 4096, val_main_v9 (F := Ideal) x0 x1 x2 x3 x4 (ix2 R q) * x5 (ix2 q j)) + x6 (ix1 j)) k := by
  rw [val_main_v24_apply, val_main_v23_apply, val_main_v22_apply, idx_v22_v23_ix, ref_expsum_apply]
  simp only [ref_exp_apply, ref_logits_apply, Ideal.hostDivf_def]
  rfl

end Cert.ReferenceIdeal.Hand

end
-- ==== Proof.Layers.lean ====
import proofs.«149770_j20074677141979_1_alg».proof.Proof.KBlocks
import proofs.«149770_j20074677141979_1_alg».proof.Proof.KPay
import proofs.«149770_j20074677141979_1_alg».proof.Proof.RefRead
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

variable (V : (c : Dev nD) → (b : Ref sig .tc) → Buf (Elt Ideal) ((c : Thread nD τ).loc b))

/-- The first kernel's output array is the reference's first hidden layer of the arrays it finds. -/
theorem layer1 (c : Dev nD) (x0 : S8192x784.Idx → EReal) (x1 : S784x4096.Idx → EReal) (x2 : S4096.Idx → EReal)
    (h0 : V c main_v0 = x0) (h1 : V c main_v1 = x1) (h2 : V c main_arg2 = x2) :
    (dat0 V c).arrAt 3 cfg0.N = Cert.ReferenceIdeal.ReadP.val_main_v4 (F := Ideal) x0 x1 x2 := by
  refine final0 V c _ ?_
  intro t y k hk0 hk1
  obtain ⟨r, cc, rfl⟩ : ∃ (r : Fin 512) (cc : Fin 4096), y = ix2 r cc := ⟨y 0, y 1, eq_ix2 y⟩
  obtain ⟨R, cc', rfl⟩ : ∃ (R : Fin 8192) (cc' : Fin 4096), k = ix2 R cc' := ⟨k 0, k 1, eq_ix2 k⟩
  have hR : R.val = 512 * t.val + r.val := hk0
  obtain rfl : cc' = cc := Fin.ext hk1
  have e0 : ∀ q : Fin 784, (iblk0 V c 0 t : Vec Ideal S512x784 .bf16) (ix2 r q) = x0 (ix2 R q) := fun q =>
    (iblk0_0_apply V c t (ix2 r q) (ix2 R q) hR rfl).trans (congrFun h0 _)
  have e1 : ∀ q : Fin 784, (iblk0 V c 1 t : Vec Ideal S784x4096 .bf16) (ix2 q cc') = x1 (ix2 q cc') := fun q =>
    (iblk0_1_apply V c t (ix2 q cc')).trans (congrFun h1 _)
  have e2 : (iblk0 V c 2 t : Vec Ideal S4096 .f32) (ix1 cc') = x2 (ix1 cc') :=
    (iblk0_2_apply V c t (ix1 cc')).trans (congrFun h2 _)
  rw [out0_3_apply, Cert.ReferenceIdeal.Hand.ref_h1_apply, e2, Finset.sum_congr rfl fun q _ => by rw [e0 q, e1 q]]

/-- The second kernel's output array is the reference's second hidden layer, when it finds the first. -/
theorem layer2 (c : Dev nD) (x0 : S8192x784.Idx → EReal) (x1 : S784x4096.Idx → EReal) (x2 : S4096.Idx → EReal)
    (x3 : S4096x4096.Idx → EReal) (x4 : S4096.Idx → EReal)
    (h0 : V c main_v4 = Cert.ReferenceIdeal.ReadP.val_main_v4 (F := Ideal) x0 x1 x2) (h1 : V c main_v2 = x3) (h2 : V c main_arg4 = x4) :
    (dat1 V c).arrAt 3 cfg1.N = Cert.ReferenceIdeal.ReadP.val_main_v9 (F := Ideal) x0 x1 x2 x3 x4 := by
  refine final1 V c _ ?_
  intro t y k hk0 hk1
  obtain ⟨r, cc, rfl⟩ : ∃ (r : Fin 128) (cc : Fin 4096), y = ix2 r cc := ⟨y 0, y 1, eq_ix2 y⟩
  obtain ⟨R, cc', rfl⟩ : ∃ (R : Fin 8192) (cc' : Fin 4096), k = ix2 R cc' := ⟨k 0, k 1, eq_ix2 k⟩
  have hR : R.val = 128 * t.val + r.val := hk0
  obtain rfl : cc' = cc := Fin.ext hk1
  have e0 : ∀ q : Fin 4096, (iblk1 V c 0 t : Vec Ideal S128x4096 .bf16) (ix2 r q)
      = Cert.ReferenceIdeal.ReadP.val_main_v4 (F := Ideal) x0 x1 x2 (ix2 R q) := fun q =>
    (iblk1_0_apply V c t (ix2 r q) (ix2 R q) hR rfl).trans (congrFun h0 _)
  have e1 : ∀ q : Fin 4096, (iblk1 V c 1 t : Vec Ideal S4096x4096 .bf16) (ix2 q cc') = x3 (ix2 q cc') := fun q =>
    (iblk1_1_apply V c t (ix2 q cc')).trans (congrFun h1 _)
  have e2 : (iblk1 V c 2 t : Vec Ideal S4096 .f32) (ix1 cc') = x4 (ix1 cc') :=
    (iblk1_2_apply V c t (ix1 cc')).trans (congrFun h2 _)
  rw [out1_3_apply, Cert.ReferenceIdeal.Hand.ref_h2_apply, e2, Finset.sum_congr rfl fun q _ => by rw [e0 q, e1 q]]

/-- The third kernel's output array is `Gout`, when it finds the second hidden layer and `Gout` at a row is the circuit of that row's probabilities. -/
theorem layer3 (c : Dev nD) (x0 : S8192x784.Idx → EReal) (x1 : S784x4096.Idx → EReal) (x2 : S4096.Idx → EReal)
    (x3 : S4096x4096.Idx → EReal) (x4 : S4096.Idx → EReal) (x5 : S4096x10.Idx → EReal) (x6 : S10.Idx → EReal)
    (Gout : S8192.Idx → EReal)
    (h0 : V c main_v5 = Cert.ReferenceIdeal.ReadP.val_main_v9 (F := Ideal) x0 x1 x2 x3 x4) (h1 : V c main_v3 = x5) (h2 : V c main_arg6 = x6)
    (hbridge : ∀ (X0 : Vec Ideal S1024x4096 .bf16) (X1 : Vec Ideal S4096x10 .bf16) (X2 : Vec Ideal S10 .f32) (r : Fin 1024) (R : Fin 8192),
      (∀ k : Fin 10, k2_pay5 X0 X1 X2 (ix2 r k) = Cert.ReferenceIdeal.ReadP.val_main_v24 (F := Ideal) x0 x1 x2 x3 x4 x5 x6 (ix2 R k)) →
      out2_3 X0 X1 X2 (ix1 r) = Gout (ix1 R)) :
    (dat2 V c).arrAt 3 cfg2.N = Gout := by
  refine final2 V c Gout ?_
  intro t y k hk0
  obtain ⟨r, rfl⟩ : ∃ r : Fin 1024, y = ix1 r := ⟨y 0, eq_ix1 y⟩
  obtain ⟨R, rfl⟩ : ∃ R : Fin 8192, k = ix1 R := ⟨k 0, eq_ix1 k⟩
  have hR : R.val = 1024 * t.val + r.val := hk0
  refine hbridge _ _ _ r R fun kk => ?_
  have e0 : ∀ q : Fin 4096, (iblk2 V c 0 t : Vec Ideal S1024x4096 .bf16) (ix2 r q)
      = Cert.ReferenceIdeal.ReadP.val_main_v9 (F := Ideal) x0 x1 x2 x3 x4 (ix2 R q) := fun q =>
    (iblk2_0_apply V c t (ix2 r q) (ix2 R q) hR rfl).trans (congrFun h0 _)
  have e1 : ∀ (q : Fin 4096) (j : Fin 10), (iblk2 V c 1 t : Vec Ideal S4096x10 .bf16) (ix2 q j) = x5 (ix2 q j) := fun q j =>
    (iblk2_1_apply V c t (ix2 q j)).trans (congrFun h1 _)
  have e2 : ∀ j : Fin 10, (iblk2 V c 2 t : Vec Ideal S10 .f32) (ix1 j) = x6 (ix1 j) := fun j =>
    (iblk2_2_apply V c t (ix1 j)).trans (congrFun h2 _)
  rw [k2_pay5_apply, Cert.ReferenceIdeal.Hand.ref_probs_apply]
  congr 1
  funext j
  rw [e2 j, Finset.sum_congr rfl fun q _ => by rw [e0 q, e1 q j]]

end Cert.KernelIdeal.Hand

end
-- ==== Proof.KChain.lean ====
import proofs.«149770_j20074677141979_1_alg».proof.Proof.Gen.KernelIdeal.Frame
import proofs.«149770_j20074677141979_1_alg».proof.Proof.Layers
import Idealize.ShloMosaic.Lib.StableHlo.Run
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-- The host's changes of format are the identity: each converted array holds its argument's launch contents. -/
theorem W1_main_v0 (c : Dev nD) :
    (W1 (F := Ideal) m ρ c (Proc.devRef .tc main_v0) : S8192x784.Idx → EReal) = m ((c : Thread nD τ).loc main_arg0) := by
  show StableHlo.after hostOps0 _ (Proc.devRef .tc main_v0) = _
  after_results
  rfl

theorem W1_main_v1 (c : Dev nD) :
    (W1 (F := Ideal) m ρ c (Proc.devRef .tc main_v1) : S784x4096.Idx → EReal) = m ((c : Thread nD τ).loc main_arg1) := by
  show StableHlo.after hostOps0 _ (Proc.devRef .tc main_v1) = _
  after_results
  rfl

theorem W1_main_v2 (c : Dev nD) :
    (W1 (F := Ideal) m ρ c (Proc.devRef .tc main_v2) : S4096x4096.Idx → EReal) = m ((c : Thread nD τ).loc main_arg3) := by
  show StableHlo.after hostOps0 _ (Proc.devRef .tc main_v2) = _
  after_results
  rfl

theorem W1_main_v3 (c : Dev nD) :
    (W1 (F := Ideal) m ρ c (Proc.devRef .tc main_v3) : S4096x10.Idx → EReal) = m ((c : Thread nD τ).loc main_arg5) := by
  show StableHlo.after hostOps0 _ (Proc.devRef .tc main_v3) = _
  after_results
  rfl

/-- No host operation writes a bias: it holds its launch contents. -/
theorem W1_main_arg2 (c : Dev nD) :
    (W1 (F := Ideal) m ρ c (Proc.devRef .tc main_arg2) : S4096.Idx → EReal) = m ((c : Thread nD τ).loc main_arg2) :=
  (StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 (F := Ideal) m ρ c (Proc.devRef .tc main_arg2) = W0 m ρ c (Proc.devRef .tc main_arg2))

theorem W1_main_arg4 (c : Dev nD) :
    (W1 (F := Ideal) m ρ c (Proc.devRef .tc main_arg4) : S4096.Idx → EReal) = m ((c : Thread nD τ).loc main_arg4) :=
  (StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 (F := Ideal) m ρ c (Proc.devRef .tc main_arg4) = W0 m ρ c (Proc.devRef .tc main_arg4))

theorem W1_main_arg6 (c : Dev nD) :
    (W1 (F := Ideal) m ρ c (Proc.devRef .tc main_arg6) : S10.Idx → EReal) = m ((c : Thread nD τ).loc main_arg6) :=
  (StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 (F := Ideal) m ρ c (Proc.devRef .tc main_arg6) = W0 m ρ c (Proc.devRef .tc main_arg6))

theorem V1_main_v0 (c : Dev nD) : (V1 (F := Ideal) m ρ c main_v0 : S8192x784.Idx → EReal) = m ((c : Thread nD τ).loc main_arg0) :=
  W1_main_v0 m ρ c
theorem V1_main_v1 (c : Dev nD) : (V1 (F := Ideal) m ρ c main_v1 : S784x4096.Idx → EReal) = m ((c : Thread nD τ).loc main_arg1) :=
  W1_main_v1 m ρ c
theorem V1_main_arg2 (c : Dev nD) : (V1 (F := Ideal) m ρ c main_arg2 : S4096.Idx → EReal) = m ((c : Thread nD τ).loc main_arg2) :=
  W1_main_arg2 m ρ c
theorem V2_main_v2 (c : Dev nD) : (V2 (F := Ideal) m ρ c main_v2 : S4096x4096.Idx → EReal) = m ((c : Thread nD τ).loc main_arg3) :=
  (W2_of_ne m ρ c main_v2 (by decide)).trans (W1_main_v2 m ρ c)
theorem V2_main_arg4 (c : Dev nD) : (V2 (F := Ideal) m ρ c main_arg4 : S4096.Idx → EReal) = m ((c : Thread nD τ).loc main_arg4) :=
  (W2_of_ne m ρ c main_arg4 (by decide)).trans (W1_main_arg4 m ρ c)
theorem V3_main_v3 (c : Dev nD) : (V3 (F := Ideal) m ρ c main_v3 : S4096x10.Idx → EReal) = m ((c : Thread nD τ).loc main_arg5) :=
  (W3_of_ne m ρ c main_v3 (by decide)).trans ((W2_of_ne m ρ c main_v3 (by decide)).trans (W1_main_v3 m ρ c))
theorem V3_main_arg6 (c : Dev nD) : (V3 (F := Ideal) m ρ c main_arg6 : S10.Idx → EReal) = m ((c : Thread nD τ).loc main_arg6) :=
  (W3_of_ne m ρ c main_arg6 (by decide)).trans ((W2_of_ne m ρ c main_arg6 (by decide)).trans (W1_main_arg6 m ρ c))

/-- The three layers composed: the result array is any `Gout` that at each row is the circuit of the reference's probabilities of the launch contents. -/
theorem result_eq (c : Dev nD) (Gout : S8192.Idx → EReal)
    (hbridge : ∀ (X0 : Vec Ideal S1024x4096 .bf16) (X1 : Vec Ideal S4096x10 .bf16) (X2 : Vec Ideal S10 .f32) (r : Fin 1024) (R : Fin 8192),
      (∀ k : Fin 10, k2_pay5 (F := Ideal) X0 X1 X2 (ix2 r k)
        = Cert.ReferenceIdeal.ReadP.val_main_v24 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (ix2 R k)) →
      out2_3 (F := Ideal) X0 X1 X2 (ix1 r) = Gout (ix1 R)) :
    W4 (F := Ideal) m ρ c (Proc.devRef .tc main_v6) = Gout := by
  have e3 : W4 (F := Ideal) m ρ c (Proc.devRef .tc main_v6) = (dat2 (V3 m ρ) c).arrAt 3 cfg2.N := W4_arr m ρ c 3
  have e2 : V3 (F := Ideal) m ρ c main_v5 = (dat1 (V2 m ρ) c).arrAt 3 cfg1.N := W3_arr m ρ c 3
  have e1 : V2 (F := Ideal) m ρ c main_v4 = (dat0 (V1 m ρ) c).arrAt 3 cfg0.N := W2_arr m ρ c 3
  have h1 := layer1 (V1 m ρ) c _ _ _ (V1_main_v0 m ρ c) (V1_main_v1 m ρ c) (V1_main_arg2 m ρ c)
  have h2 := layer2 (V2 m ρ) c _ _ _ _ _ (e1.trans h1) (V2_main_v2 m ρ c) (V2_main_arg4 m ρ c)
  exact e3.trans (layer3 (V3 m ρ) c _ _ _ _ _ _ _ Gout (e2.trans h2) (V3_main_v3 m ρ c) (V3_main_arg6 m ρ c) hbridge)

end Cert.KernelIdeal.Hand
-- ==== Proof.LibSsa.lean ====
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

abbrev key (r : Ref sig .tc) : Nat := r.idx.val

/-- Step `n` of a single-assignment line: only the reference numbered `n` changes, to a value that depends only on
    references numbered below `n`. -/
def Step (n : Nat) (op : HloOp τ sig Val) : Prop :=
  (∀ (X : Valuation τ sig Val) (r : Ref sig .tc), key r ≠ n → op.result X (Proc.devRef .tc r) = X (Proc.devRef .tc r)) ∧
  (∀ (X X' : Valuation τ sig Val), (∀ r : Ref sig .tc, key r < n → X (Proc.devRef .tc r) = X' (Proc.devRef .tc r)) →
    ∀ r : Ref sig .tc, key r = n → op.result X (Proc.devRef .tc r) = op.result X' (Proc.devRef .tc r)) ∧
  op.bufs ⊆ tcRefs τ sig ∧ op.fresh = ∅

/-- The operations are the steps `n`, `n + 1`, …, `m - 1`, in order. -/
def Line : Nat → List (HloOp τ sig Val) → Nat → Prop
  | n, [], m => n = m
  | n, op :: ops, m => Step n op ∧ Line (n + 1) ops m

theorem Line.append {n k m : Nat} {l₁ l₂ : List (HloOp τ sig Val)} (h₁ : Line n l₁ k) (h₂ : Line k l₂ m) :
    Line n (l₁ ++ l₂) m := by
  induction l₁ generalizing n with
  | nil => exact (show n = k from h₁) ▸ h₂
  | cons op l ih => exact ⟨h₁.1, ih h₁.2⟩

theorem Line.mem {n m : Nat} {l : List (HloOp τ sig Val)} (h : Line n l m) : ∀ op ∈ l, ∃ k, Step k op := by
  induction l generalizing n with
  | nil => intro _ h'; exact absurd h' List.not_mem_nil
  | cons op l ih =>
    intro op' h'
    rcases List.mem_cons.mp h' with rfl | h'
    exacts [⟨n, h.1⟩, ih h.2 op' h']

theorem Line.sub {n m : Nat} {l : List (HloOp τ sig Val)} (h : Line n l m) : l.Forall fun op => op.bufs ⊆ tcRefs τ sig :=
  List.forall_iff_forall_mem.mpr fun op hop => (h.mem op hop).elim fun _ hk => hk.2.2.1

theorem Line.fresh {n m : Nat} {l : List (HloOp τ sig Val)} (h : Line n l m) : ∀ op ∈ l, op.fresh = ∅ :=
  fun op hop => (h.mem op hop).elim fun _ hk => hk.2.2.2

/-- A reference numbered below the line's first step keeps its contents. -/
theorem after_below {n m : Nat} {ops : List (HloOp τ sig Val)} (h : Line n ops m) (X : Valuation τ sig Val) (r : Ref sig .tc)
    (hr : key r < n) : after ops X (Proc.devRef .tc r) = X (Proc.devRef .tc r) := by
  induction ops generalizing n X with
  | nil => rfl
  | cons op ops ih =>
    rw [after_cons, ih h.2 _ (Nat.lt_succ_of_lt hr)]
    exact h.1.1 X r (Nat.ne_of_lt hr)

/-- Every operation, run again on the contents after the line, reproduces them: what it reads was final when it ran. -/
theorem fixed {n m : Nat} {ops : List (HloOp τ sig Val)} (h : Line n ops m) (X : Valuation τ sig Val) :
    ∀ op ∈ ops, ∀ r : Ref sig .tc, op.result (after ops X) (Proc.devRef .tc r) = after ops X (Proc.devRef .tc r) := by
  induction ops generalizing n X with
  | nil => intro op hop; exact absurd hop List.not_mem_nil
  | cons op ops ih =>
    intro op' hop' r
    rcases List.mem_cons.mp hop' with rfl | hmem
    · by_cases hr : key r = n
      · rw [h.1.2.1 (after (op' :: ops) X) X (fun r' hr' => after_below h X r' hr') r hr, after_cons,
          after_below h.2 _ r (by omega)]
      · exact h.1.1 _ r hr
    · rw [after_cons]
      exact ih h.2 _ op' hmem r

/-- Contents that every operation of the list reproduces. -/
def Fix (ops : List (HloOp τ sig Val)) (G : Valuation τ sig Val) : Prop :=
  ∀ op ∈ ops, ∀ r : Ref sig .tc, op.result G (Proc.devRef .tc r) = G (Proc.devRef .tc r)

theorem Fix.part {L : List (List (HloOp τ sig Val))} {G : Valuation τ sig Val} (h : Fix L.flatten G) (k : Nat)
    {l : List (HloOp τ sig Val)} (hk : L[k]? = some l) : Fix l G :=
  fun op hop => h op (List.mem_flatten.mpr ⟨l, List.mem_of_getElem? hk, hop⟩)

section Equations

variable {ops : List (HloOp τ sig Val)} {G : Valuation τ sig Val} (hG : Fix ops G) (i : Nat)
include hG

/-- The defining equation of the operation at place `i` holds of such contents. -/
theorem Fix.nullary {y : Ref sig .tc} {v : y.ty.Contents Val} {hy} (h : ops[i]? = some (nullary (τ := τ) y v hy)) :
    G (Proc.devRef .tc y) = v :=
  ((hG _ (List.mem_of_getElem? h) y).symm).trans (nullary_result y v hy G)

theorem Fix.unary {x y : Ref sig .tc} {f : x.ty.Contents Val → y.ty.Contents Val} {hx hy}
    (h : ops[i]? = some (unary (τ := τ) x y f hx hy)) : G (Proc.devRef .tc y) = f (G (Proc.devRef .tc x)) :=
  ((hG _ (List.mem_of_getElem? h) y).symm).trans (unary_result x y f hx hy G)

theorem Fix.binary {a b y : Ref sig .tc} {f : a.ty.Contents Val → b.ty.Contents Val → y.ty.Contents Val} {ha hb hy}
    (h : ops[i]? = some (binary (τ := τ) a b y f ha hb hy)) :
    G (Proc.devRef .tc y) = f (G (Proc.devRef .tc a)) (G (Proc.devRef .tc b)) :=
  ((hG _ (List.mem_of_getElem? h) y).symm).trans (binary_result a b y f ha hb hy G)

theorem Fix.reshape {x y : Ref sig .tc} {he : x.ty.elt = y.ty.elt} {hn : x.ty.shape.ShapeCasts y.ty.shape} {hx hy}
    (h : ops[i]? = some (reshape (τ := τ) (Val := Val) x y he hn hx hy)) :
    G (Proc.devRef .tc y) = fun j => he ▸ shapeCast y.ty.shape (G (Proc.devRef .tc x)) hn j :=
  ((hG _ (List.mem_of_getElem? h) y).symm).trans (reshape_result x y he hn hx hy G)

end Equations

section Builders

variable (hinj : ∀ r r' : Ref sig .tc, key r = key r' → r = r') {n : Nat}
include hinj

theorem step_nullary {y : Ref sig .tc} {v : y.ty.Contents Val} {hy} (hn : key y = n) : Step n (nullary (τ := τ) y v hy) := by
  refine ⟨fun X r hr => nullary_result_ne y v hy X (fun e => hr (e ▸ hn)), fun X X' _ r hr => ?_, nullary_bufs_sub .., rfl⟩
  obtain rfl : r = y := hinj _ _ (hr.trans hn.symm)
  exact (nullary_result r v hy X).trans (nullary_result r v hy X').symm

theorem step_unary {x y : Ref sig .tc} {f : x.ty.Contents Val → y.ty.Contents Val} {hx hy} (hn : key y = n ∧ key x < n) :
    Step n (unary (τ := τ) x y f hx hy) := by
  refine ⟨fun X r hr => unary_result_ne x y f hx hy X (fun e => hr (e ▸ hn.1)), fun X X' hX r hr => ?_, unary_bufs_sub .., rfl⟩
  obtain rfl : r = y := hinj _ _ (hr.trans hn.1.symm)
  exact (unary_result x r f hx hy X).trans ((congrArg f (hX x hn.2)).trans (unary_result x r f hx hy X').symm)

theorem step_binary {a b y : Ref sig .tc} {f : a.ty.Contents Val → b.ty.Contents Val → y.ty.Contents Val} {ha hb hy}
    (hn : key y = n ∧ key a < n ∧ key b < n) : Step n (binary (τ := τ) a b y f ha hb hy) := by
  refine ⟨fun X r hr => binary_result_ne a b y f ha hb hy X (fun e => hr (e ▸ hn.1)), fun X X' hX r hr => ?_, binary_bufs_sub .., rfl⟩
  obtain rfl : r = y := hinj _ _ (hr.trans hn.1.symm)
  exact (binary_result a b r f ha hb hy X).trans
    ((congrArg₂ f (hX a hn.2.1) (hX b hn.2.2)).trans (binary_result a b r f ha hb hy X').symm)

theorem step_reshape {x y : Ref sig .tc} {he : x.ty.elt = y.ty.elt} {hs : x.ty.shape.ShapeCasts y.ty.shape} {hx hy}
    (hn : key y = n ∧ key x < n) : Step n (reshape (τ := τ) (Val := Val) x y he hs hx hy) := by
  refine ⟨fun X r hr => reshape_result_ne x y he hs hx hy X (fun e => hr (e ▸ hn.1)), fun X X' hX r hr => ?_, reshape_bufs_sub .., rfl⟩
  obtain rfl : r = y := hinj _ _ (hr.trans hn.1.symm)
  rw [reshape_result x r he hs hx hy X, reshape_result x r he hs hx hy X', hX x hn.2]

end Builders

end Idealize.ShloMosaic.StableHlo.Ssa

end
-- ==== Proof.RefIdx.lean ====
import proofs.«149770_j20074677141979_1_alg».proof.Proof.Gen.ReferenceIdeal
import proofs.«149770_j20074677141979_1_alg».proof.Proof.LibSsa

noncomputable section

namespace Cert.ReferenceIdeal.Hand

open Cert.ReferenceIdeal Idealize.ShloMosaic Idealize.ShloMosaic.StableHlo

/-- All references of the reference program are in one space, so its number determines a reference. -/
theorem idx_inj : ∀ r r' : Ref sig .tc, Ssa.key r = Ssa.key r' → r = r' := by
  have hb : ∀ r : Ref sig .tc, r.space = .hbm := by
    rintro ⟨s, i, hi⟩
    rcases s with ⟨⟨⟩ | ⟨⟩⟩ | ⟨⟩ | ⟨⟩ | ⟨⟩ <;> first
      | rfl
      | exact absurd (show i.val < 0 from i.isLt) (Nat.not_lt_zero _)
      | exact absurd hi (by decide)
  rintro ⟨s, i, hi⟩ ⟨s', i', hi'⟩ h
  obtain rfl : s = .hbm := hb ⟨s, i, hi⟩
  obtain rfl : s' = .hbm := hb ⟨s', i', hi'⟩
  obtain rfl : i = i' := Fin.ext h
  rfl

variable {Val : EltTy → Type} {n : Nat}

theorem sN {y : Ref sig .tc} {v : y.ty.Contents Val} {hy} (h : Ssa.key y = n := by decide) :
    Ssa.Step n (nullary (τ := τ) y v hy) := Ssa.step_nullary idx_inj h

theorem sU {x y : Ref sig .tc} {f : x.ty.Contents Val → y.ty.Contents Val} {hx hy}
    (h : Ssa.key y = n ∧ Ssa.key x < n := by decide) : Ssa.Step n (unary (τ := τ) x y f hx hy) := Ssa.step_unary idx_inj h

theorem sB {a b y : Ref sig .tc} {f : a.ty.Contents Val → b.ty.Contents Val → y.ty.Contents Val} {ha hb hy}
    (h : Ssa.key y = n ∧ Ssa.key a < n ∧ Ssa.key b < n := by decide) : Ssa.Step n (binary (τ := τ) a b y f ha hb hy) :=
  Ssa.step_binary idx_inj h

theorem sR {x y : Ref sig .tc} {he : x.ty.elt = y.ty.elt} {hs : x.ty.shape.ShapeCasts y.ty.shape} {hx hy}
    (h : Ssa.key y = n ∧ Ssa.key x < n := by decide) : Ssa.Step n (reshape (τ := τ) (Val := Val) x y he hs hx hy) :=
  Ssa.step_reshape idx_inj h

end Cert.ReferenceIdeal.Hand

end
-- ==== Proof.RefOps.Part0.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops0 : List (HloOp τ sig (Elt F)) :=
  [ binary main_arg0 main_arg1 main_v0 (fun l r => Host.dotGeneral dot_S8192x784_S784x4096_S8192x4096_1_0_0_1_n_n none l r),
    unary main_arg2 main_v1 (broadcastInDim S1x4096 ![1] bcast_S4096_S1x4096_1),
    unary main_v1 main_v2 (broadcastInDim S8192x4096 ![0, 1] bcast_S1x4096_S8192x4096_0_1),
    binary main_v0 main_v2 main_v3 addf,
    TRef.nullary (TRef.of (T := ⟨S_, .f32⟩) main_call0_cst) (constant S_ .f32 0x00000000#32),
    TRef.unary (TRef.of (T := ⟨S_, .f32⟩) main_call0_cst) (TRef.of (T := ⟨S8192x4096, .f32⟩) main_call0_v0) (broadcastInDim S8192x4096 ![] bcast_S_S8192x4096),
    TRef.binary (TRef.of (T := ⟨S8192x4096, .f32⟩) main_v3) (TRef.of (T := ⟨S8192x4096, .f32⟩) main_call0_v0) (TRef.of (T := ⟨S8192x4096, .f32⟩) main_v4) maximumf,
    binary main_v4 main_arg3 main_v5 (fun l r => Host.dotGeneral dot_S8192x4096_S4096x4096_S8192x4096_1_0_0_1_n_n none l r),
    unary main_arg4 main_v6 (broadcastInDim S1x4096 ![1] bcast_S4096_S1x4096_1),
    unary main_v6 main_v7 (broadcastInDim S8192x4096 ![0, 1] bcast_S1x4096_S8192x4096_0_1),
    binary main_v5 main_v7 main_v8 addf,
    TRef.nullary (TRef.of (T := ⟨S_, .f32⟩) main_call1_cst) (constant S_ .f32 0x00000000#32),
    TRef.unary (TRef.of (T := ⟨S_, .f32⟩) main_call1_cst) (TRef.of (T := ⟨S8192x4096, .f32⟩) main_call1_v0) (broadcastInDim S8192x4096 ![] bcast_S_S8192x4096),
    TRef.binary (TRef.of (T := ⟨S8192x4096, .f32⟩) main_v8) (TRef.of (T := ⟨S8192x4096, .f32⟩) main_call1_v0) (TRef.of (T := ⟨S8192x4096, .f32⟩) main_v9) maximumf,
    binary main_v9 main_arg5 main_v10 (fun l r => Host.dotGeneral dot_S8192x4096_S4096x10_S8192x10_1_0_0_1_n_n none l r),
    unary main_arg6 main_v11 (broadcastInDim S1x10 ![1] bcast_S10_S1x10_1),
    unary main_v11 main_v12 (broadcastInDim S8192x10 ![0, 1] bcast_S1x10_S8192x10_0_1),
    binary main_v10 main_v12 main_v13 addf,
    nullary main_cst (constant S_ .f32 0xFF800000#32),
    binary main_v13 main_cst main_v14 (fun x v => Host.reduce FloatOps.maximumf x v reducesTo_S8192x10_S8192_d1 h_S_),
    nullary main_cst_0 (constant S_ .f32 0xFF800000#32),
    unary main_cst_0 main_v15 (broadcastInDim S8192 ![] bcast_S_S8192),
    binary main_v15 main_v14 main_v16 maximumf,
    unary main_v16 main_v17 (broadcastInDim S8192x1 ![0] bcast_S8192_S8192x1_0),
    unary main_v17 main_v18 (broadcastInDim S8192x10 ![0, 1] bcast_S8192x1_S8192x10_0_1),
    binary main_v13 main_v18 main_v19 subf,
    unary main_v19 main_v20 Host.exp,
    nullary main_cst_1 (constant S_ .f32 0x00000000#32),
    binary main_v20 main_cst_1 main_v21 (fun x v => Host.reduceAdd x v reducesTo_S8192x10_S8192_d1 h_S_),
    unary main_v21 main_v22 (broadcastInDim S8192x1 ![0] bcast_S8192_S8192x1_0),
    unary main_v22 main_v23 (broadcastInDim S8192x10 ![0, 1] bcast_S8192x1_S8192x10_0_1),
    binary main_v20 main_v23 main_v24 Host.divf,
    unary main_v24 main_v25 (extractStridedSlice S8192x1 ![0, 0] · slices_S8192x10_S8192x1_0_0),
    reshape main_v25 main_v26 rfl shapeCasts_S8192x1_S8192,
    unary main_v24 main_v27 (extractStridedSlice S8192x1 ![0, 1] · slices_S8192x10_S8192x1_0_1),
    reshape main_v27 main_v28 rfl shapeCasts_S8192x1_S8192,
    unary main_v24 main_v29 (extractStridedSlice S8192x1 ![0, 2] · slices_S8192x10_S8192x1_0_2),
    reshape main_v29 main_v30 rfl shapeCasts_S8192x1_S8192,
    unary main_v24 main_v31 (extractStridedSlice S8192x1 ![0, 3] · slices_S8192x10_S8192x1_0_3),
    reshape main_v31 main_v32 rfl shapeCasts_S8192x1_S8192,
    unary main_v24 main_v33 (extractStridedSlice S8192x1 ![0, 4] · slices_S8192x10_S8192x1_0_4),
    reshape main_v33 main_v34 rfl shapeCasts_S8192x1_S8192,
    unary main_v24 main_v35 (extractStridedSlice S8192x1 ![0, 5] · slices_S8192x10_S8192x1_0_5),
    reshape main_v35 main_v36 rfl shapeCasts_S8192x1_S8192,
    unary main_v24 main_v37 (extractStridedSlice S8192x1 ![0, 6] · slices_S8192x10_S8192x1_0_6),
    reshape main_v37 main_v38 rfl shapeCasts_S8192x1_S8192,
    unary main_v24 main_v39 (extractStridedSlice S8192x1 ![0, 7] · slices_S8192x10_S8192x1_0_7),
    reshape main_v39 main_v40 rfl shapeCasts_S8192x1_S8192,
    unary main_v24 main_v41 (extractStridedSlice S8192x1 ![0, 8] · slices_S8192x10_S8192x1_0_8),
    reshape main_v41 main_v42 rfl shapeCasts_S8192x1_S8192,
    unary main_v24 main_v43 (extractStridedSlice S8192x1 ![0, 9] · slices_S8192x10_S8192x1_0_9),
    reshape main_v43 main_v44 rfl shapeCasts_S8192x1_S8192,
    unary main_v24 main_v45 (extractStridedSlice S8192x1 ![0, 0] · slices_S8192x10_S8192x1_0_0),
    reshape main_v45 main_v46 rfl shapeCasts_S8192x1_S8192,
    nullary main_cst_2 (constant S_ .f32 0x3F800000#32),
    unary main_cst_2 main_v47 (broadcastInDim S8192 ![] bcast_S_S8192),
    binary main_v47 main_v46 main_v48 subf,
    unary main_v24 main_v49 (extractStridedSlice S8192x1 ![0, 1] · slices_S8192x10_S8192x1_0_1),
    reshape main_v49 main_v50 rfl shapeCasts_S8192x1_S8192,
    nullary main_cst_3 (constant S_ .f32 0x3F800000#32),
    unary main_cst_3 main_v51 (broadcastInDim S8192 ![] bcast_S_S8192),
    binary main_v51 main_v50 main_v52 subf,
    unary main_v24 main_v53 (extractStridedSlice S8192x1 ![0, 2] · slices_S8192x10_S8192x1_0_2),
    reshape main_v53 main_v54 rfl shapeCasts_S8192x1_S8192 ]

theorem part0_eq (c : Dev nD) : main_part0 (F := F) c = seq ops0 := rfl

theorem ops0_line : Ssa.Line 7 (ops0 : List (HloOp τ sig (Elt F))) 71 :=
  ⟨sB, sU, sU, sB, sN, sU, sB, sB, sU, sU, sB, sN, sU, sB, sB, sU, sU, sB, sN, sB, sN, sU, sB, sU, sU, sB, sU, sN, sB, sU, sU, sB, sU, sR, sU, sR, sU, sR, sU, sR, sU, sR, sU, sR, sU, sR, sU, sR, sU, sR, sU, sR, sU, sR, sN, sU, sB, sU, sR, sN, sU, sB, sU, sR, rfl⟩

end Cert.ReferenceIdeal.Hand

end
-- ==== Proof.RefOps.Part1.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops1 : List (HloOp τ sig (Elt F)) :=
  [ nullary main_cst_4 (constant S_ .f32 0x3F800000#32),
    unary main_cst_4 main_v55 (broadcastInDim S8192 ![] bcast_S_S8192),
    binary main_v55 main_v54 main_v56 subf,
    unary main_v24 main_v57 (extractStridedSlice S8192x1 ![0, 3] · slices_S8192x10_S8192x1_0_3),
    reshape main_v57 main_v58 rfl shapeCasts_S8192x1_S8192,
    nullary main_cst_5 (constant S_ .f32 0x3F800000#32),
    unary main_cst_5 main_v59 (broadcastInDim S8192 ![] bcast_S_S8192),
    binary main_v59 main_v58 main_v60 subf,
    unary main_v24 main_v61 (extractStridedSlice S8192x1 ![0, 4] · slices_S8192x10_S8192x1_0_4),
    reshape main_v61 main_v62 rfl shapeCasts_S8192x1_S8192,
    nullary main_cst_6 (constant S_ .f32 0x3F800000#32),
    unary main_cst_6 main_v63 (broadcastInDim S8192 ![] bcast_S_S8192),
    binary main_v63 main_v62 main_v64 subf,
    unary main_v24 main_v65 (extractStridedSlice S8192x1 ![0, 5] · slices_S8192x10_S8192x1_0_5),
    reshape main_v65 main_v66 rfl shapeCasts_S8192x1_S8192,
    nullary main_cst_7 (constant S_ .f32 0x3F800000#32),
    unary main_cst_7 main_v67 (broadcastInDim S8192 ![] bcast_S_S8192),
    binary main_v67 main_v66 main_v68 subf,
    unary main_v24 main_v69 (extractStridedSlice S8192x1 ![0, 6] · slices_S8192x10_S8192x1_0_6),
    reshape main_v69 main_v70 rfl shapeCasts_S8192x1_S8192,
    nullary main_cst_8 (constant S_ .f32 0x3F800000#32),
    unary main_cst_8 main_v71 (broadcastInDim S8192 ![] bcast_S_S8192),
    binary main_v71 main_v70 main_v72 subf,
    unary main_v24 main_v73 (extractStridedSlice S8192x1 ![0, 7] · slices_S8192x10_S8192x1_0_7),
    reshape main_v73 main_v74 rfl shapeCasts_S8192x1_S8192,
    nullary main_cst_9 (constant S_ .f32 0x3F800000#32),
    unary main_cst_9 main_v75 (broadcastInDim S8192 ![] bcast_S_S8192),
    binary main_v75 main_v74 main_v76 subf,
    unary main_v24 main_v77 (extractStridedSlice S8192x1 ![0, 8] · slices_S8192x10_S8192x1_0_8),
    reshape main_v77 main_v78 rfl shapeCasts_S8192x1_S8192,
    nullary main_cst_10 (constant S_ .f32 0x3F800000#32),
    unary main_cst_10 main_v79 (broadcastInDim S8192 ![] bcast_S_S8192),
    binary main_v79 main_v78 main_v80 subf,
    unary main_v24 main_v81 (extractStridedSlice S8192x1 ![0, 9] · slices_S8192x10_S8192x1_0_9),
    reshape main_v81 main_v82 rfl shapeCasts_S8192x1_S8192,
    nullary main_cst_11 (constant S_ .f32 0x3F800000#32),
    unary main_cst_11 main_v83 (broadcastInDim S8192 ![] bcast_S_S8192),
    binary main_v83 main_v82 main_v84 subf,
    binary main_v30 main_v34 main_v85 mulf,
    binary main_v42 main_v38 main_v86 mulf,
    binary main_v85 main_v86 main_v87 addf,
    binary main_v34 main_v56 main_v88 mulf,
    binary main_v87 main_v88 main_v89 addf,
    binary main_v36 main_v42 main_v90 mulf,
    binary main_v30 main_v44 main_v91 mulf,
    binary main_v90 main_v91 main_v92 addf,
    binary main_v32 main_v89 main_v93 mulf,
    binary main_v92 main_v93 main_v94 addf,
    binary main_v34 main_v84 main_v95 mulf,
    binary main_v28 main_v84 main_v96 mulf,
    binary main_v95 main_v96 main_v97 addf,
    binary main_v38 main_v84 main_v98 mulf,
    binary main_v97 main_v98 main_v99 addf,
    binary main_v36 main_v32 main_v100 mulf,
    binary main_v34 main_v52 main_v101 mulf,
    binary main_v100 main_v101 main_v102 addf,
    binary main_v30 main_v80 main_v103 mulf,
    binary main_v102 main_v103 main_v104 addf,
    binary main_v32 main_v34 main_v105 mulf,
    binary main_v42 main_v44 main_v106 mulf ]

theorem part1_eq (c : Dev nD) : main_part1 (F := F) c = seq ops1 := rfl

theorem ops1_line : Ssa.Line 71 (ops1 : List (HloOp τ sig (Elt F))) 131 :=
  ⟨sN, sU, sB, sU, sR, sN, sU, sB, sU, sR, sN, sU, sB, sU, sR, sN, sU, sB, sU, sR, sN, sU, sB, sU, sR, sN, sU, sB, sU, sR, sN, sU, sB, sU, sR, sN, sU, sB, sB, sB, sB, sB, sB, sB, sB, sB, sB, sB, sB, sB, sB, sB, sB, sB, sB, sB, sB, sB, sB, sB, rfl⟩

end Cert.ReferenceIdeal.Hand

end
-- ==== Proof.RefOps.Part2.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops2 : List (HloOp τ sig (Elt F)) :=
  [ binary main_v105 main_v106 main_v107 addf,
    binary main_v28 main_v48 main_v108 mulf,
    binary main_v107 main_v108 main_v109 addf,
    binary main_v36 main_v26 main_v110 mulf,
    binary main_v26 main_v64 main_v111 mulf,
    binary main_v110 main_v111 main_v112 addf,
    binary main_v34 main_v32 main_v113 mulf,
    binary main_v112 main_v113 main_v114 addf,
    binary main_v28 main_v89 main_v115 mulf,
    binary main_v30 main_v42 main_v116 mulf,
    binary main_v115 main_v116 main_v117 addf,
    binary main_v26 main_v64 main_v118 mulf,
    binary main_v117 main_v118 main_v119 addf,
    binary main_v44 main_v32 main_v120 mulf,
    binary main_v40 main_v26 main_v121 mulf,
    binary main_v120 main_v121 main_v122 addf,
    binary main_v42 main_v36 main_v123 mulf,
    binary main_v122 main_v123 main_v124 addf,
    binary main_v32 main_v60 main_v125 mulf,
    binary main_v38 main_v72 main_v126 mulf,
    binary main_v125 main_v126 main_v127 addf,
    binary main_v36 main_v40 main_v128 mulf,
    binary main_v127 main_v128 main_v129 addf,
    binary main_v42 main_v30 main_v130 mulf,
    binary main_v28 main_v32 main_v131 mulf,
    binary main_v130 main_v131 main_v132 addf,
    binary main_v34 main_v124 main_v133 mulf,
    binary main_v132 main_v133 main_v134 addf,
    binary main_v26 main_v119 main_v135 mulf,
    binary main_v36 main_v28 main_v136 mulf,
    binary main_v135 main_v136 main_v137 addf,
    binary main_v40 main_v34 main_v138 mulf,
    binary main_v137 main_v138 main_v139 addf,
    binary main_v28 main_v38 main_v140 mulf,
    binary main_v36 main_v84 main_v141 mulf,
    binary main_v140 main_v141 main_v142 addf,
    binary main_v44 main_v64 main_v143 mulf,
    binary main_v142 main_v143 main_v144 addf,
    binary main_v40 main_v139 main_v145 mulf,
    binary main_v44 main_v30 main_v146 mulf,
    binary main_v145 main_v146 main_v147 addf,
    binary main_v30 main_v52 main_v148 mulf,
    binary main_v147 main_v148 main_v149 addf,
    binary main_v28 main_v32 main_v150 mulf,
    binary main_v38 main_v64 main_v151 mulf,
    binary main_v150 main_v151 main_v152 addf,
    binary main_v36 main_v149 main_v153 mulf,
    binary main_v152 main_v153 main_v154 addf,
    binary main_v38 main_v109 main_v155 mulf,
    binary main_v30 main_v134 main_v156 mulf,
    binary main_v155 main_v156 main_v157 addf,
    binary main_v26 main_v94 main_v158 mulf,
    binary main_v157 main_v158 main_v159 addf,
    binary main_v40 main_v38 main_v160 mulf,
    binary main_v30 main_v94 main_v161 mulf,
    binary main_v160 main_v161 main_v162 addf,
    binary main_v42 main_v144 main_v163 mulf,
    binary main_v162 main_v163 main_v164 addf,
    binary main_v34 main_v134 main_v165 mulf,
    binary main_v38 main_v28 main_v166 mulf ]

theorem part2_eq (c : Dev nD) : main_part2 (F := F) c = seq ops2 := rfl

theorem ops2_line : Ssa.Line 131 (ops2 : List (HloOp τ sig (Elt F))) 191 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part3.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops3 : List (HloOp τ sig (Elt F)) :=
  [ binary main_v165 main_v166 main_v167 addf,
    binary main_v32 main_v144 main_v168 mulf,
    binary main_v167 main_v168 main_v169 addf,
    binary main_v28 main_v164 main_v170 mulf,
    binary main_v44 main_v99 main_v171 mulf,
    binary main_v170 main_v171 main_v172 addf,
    binary main_v34 main_v36 main_v173 mulf,
    binary main_v172 main_v173 main_v174 addf,
    binary main_v38 main_v129 main_v175 mulf,
    binary main_v44 main_v30 main_v176 mulf,
    binary main_v175 main_v176 main_v177 addf,
    binary main_v28 main_v124 main_v178 mulf,
    binary main_v177 main_v178 main_v179 addf,
    binary main_v26 main_v104 main_v180 mulf,
    binary main_v30 main_v32 main_v181 mulf,
    binary main_v180 main_v181 main_v182 addf,
    binary main_v28 main_v119 main_v183 mulf,
    binary main_v182 main_v183 main_v184 addf,
    binary main_v26 main_v154 main_v185 mulf,
    binary main_v36 main_v159 main_v186 mulf,
    binary main_v185 main_v186 main_v187 addf,
    binary main_v34 main_v159 main_v188 mulf,
    binary main_v187 main_v188 main_v189 addf,
    binary main_v40 main_v72 main_v190 mulf,
    binary main_v44 main_v42 main_v191 mulf,
    binary main_v190 main_v191 main_v192 addf,
    binary main_v30 main_v28 main_v193 mulf,
    binary main_v192 main_v193 main_v194 addf,
    binary main_v44 main_v114 main_v195 mulf,
    binary main_v30 main_v32 main_v196 mulf,
    binary main_v195 main_v196 main_v197 addf,
    binary main_v36 main_v184 main_v198 mulf,
    binary main_v197 main_v198 main_v199 addf,
    binary main_v26 main_v89 main_v200 mulf,
    binary main_v44 main_v30 main_v201 mulf,
    binary main_v200 main_v201 main_v202 addf,
    binary main_v34 main_v36 main_v203 mulf,
    binary main_v202 main_v203 main_v204 addf,
    binary main_v26 main_v38 main_v205 mulf,
    binary main_v28 main_v40 main_v206 mulf,
    binary main_v205 main_v206 main_v207 addf,
    binary main_v34 main_v80 main_v208 mulf,
    binary main_v207 main_v208 main_v209 addf,
    binary main_v44 main_v124 main_v210 mulf,
    binary main_v26 main_v44 main_v211 mulf,
    binary main_v210 main_v211 main_v212 addf,
    binary main_v30 main_v129 main_v213 mulf,
    binary main_v212 main_v213 main_v214 addf,
    binary main_v44 main_v32 main_v215 mulf,
    binary main_v32 main_v42 main_v216 mulf,
    binary main_v215 main_v216 main_v217 addf,
    binary main_v40 main_v124 main_v218 mulf,
    binary main_v217 main_v218 main_v219 addf,
    binary main_v44 main_v26 main_v220 mulf,
    binary main_v34 main_v52 main_v221 mulf,
    binary main_v220 main_v221 main_v222 addf,
    binary main_v38 main_v129 main_v223 mulf,
    binary main_v222 main_v223 main_v224 addf,
    binary main_v28 main_v164 main_v225 mulf,
    binary main_v32 main_v84 main_v226 mulf ]

theorem part3_eq (c : Dev nD) : main_part3 (F := F) c = seq ops3 := rfl

theorem ops3_line : Ssa.Line 191 (ops3 : List (HloOp τ sig (Elt F))) 251 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part4.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops4 : List (HloOp τ sig (Elt F)) :=
  [ binary main_v225 main_v226 main_v227 addf,
    binary main_v42 main_v40 main_v228 mulf,
    binary main_v227 main_v228 main_v229 addf,
    binary main_v30 main_v119 main_v230 mulf,
    binary main_v28 main_v48 main_v231 mulf,
    binary main_v230 main_v231 main_v232 addf,
    binary main_v34 main_v219 main_v233 mulf,
    binary main_v232 main_v233 main_v234 addf,
    binary main_v26 main_v204 main_v235 mulf,
    binary main_v38 main_v80 main_v236 mulf,
    binary main_v235 main_v236 main_v237 addf,
    binary main_v34 main_v214 main_v238 mulf,
    binary main_v237 main_v238 main_v239 addf,
    binary main_v42 main_v164 main_v240 mulf,
    binary main_v32 main_v234 main_v241 mulf,
    binary main_v240 main_v241 main_v242 addf,
    binary main_v34 main_v199 main_v243 mulf,
    binary main_v242 main_v243 main_v244 addf,
    binary main_v28 main_v99 main_v245 mulf,
    binary main_v30 main_v68 main_v246 mulf,
    binary main_v245 main_v246 main_v247 addf,
    binary main_v34 main_v114 main_v248 mulf,
    binary main_v247 main_v248 main_v249 addf,
    binary main_v36 main_v239 main_v250 mulf,
    binary main_v44 main_v214 main_v251 mulf,
    binary main_v250 main_v251 main_v252 addf,
    binary main_v26 main_v104 main_v253 mulf,
    binary main_v252 main_v253 main_v254 addf,
    binary main_v32 main_v104 main_v255 mulf,
    binary main_v30 main_v124 main_v256 mulf,
    binary main_v255 main_v256 main_v257 addf,
    binary main_v38 main_v134 main_v258 mulf,
    binary main_v257 main_v258 main_v259 addf,
    binary main_v38 main_v84 main_v260 mulf,
    binary main_v26 main_v169 main_v261 mulf,
    binary main_v260 main_v261 main_v262 addf,
    binary main_v30 main_v76 main_v263 mulf,
    binary main_v262 main_v263 main_v264 addf,
    binary main_v44 main_v72 main_v265 mulf,
    binary main_v42 main_v229 main_v266 mulf,
    binary main_v265 main_v266 main_v267 addf,
    binary main_v38 main_v224 main_v268 mulf,
    binary main_v267 main_v268 main_v269 addf,
    binary main_v40 main_v234 main_v270 mulf,
    binary main_v30 main_v48 main_v271 mulf,
    binary main_v270 main_v271 main_v272 addf,
    binary main_v26 main_v159 main_v273 mulf,
    binary main_v272 main_v273 main_v274 addf,
    binary main_v36 main_v109 main_v275 mulf,
    binary main_v42 main_v169 main_v276 mulf,
    binary main_v275 main_v276 main_v277 addf,
    binary main_v26 main_v164 main_v278 mulf,
    binary main_v277 main_v278 main_v279 addf,
    binary main_v42 main_v34 main_v280 mulf,
    binary main_v40 main_v119 main_v281 mulf,
    binary main_v280 main_v281 main_v282 addf,
    binary main_v44 main_v149 main_v283 mulf,
    binary main_v282 main_v283 main_v284 addf,
    binary main_v30 main_v42 main_v285 mulf,
    binary main_v26 main_v259 main_v286 mulf ]

theorem part4_eq (c : Dev nD) : main_part4 (F := F) c = seq ops4 := rfl

theorem ops4_line : Ssa.Line 251 (ops4 : List (HloOp τ sig (Elt F))) 311 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part5.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops5 : List (HloOp τ sig (Elt F)) :=
  [ binary main_v285 main_v286 main_v287 addf,
    binary main_v34 main_v89 main_v288 mulf,
    binary main_v287 main_v288 main_v289 addf,
    binary main_v44 main_v84 main_v290 mulf,
    binary main_v28 main_v144 main_v291 mulf,
    binary main_v290 main_v291 main_v292 addf,
    binary main_v26 main_v26 main_v293 mulf,
    binary main_v292 main_v293 main_v294 addf,
    binary main_v28 main_v189 main_v295 mulf,
    binary main_v42 main_v244 main_v296 mulf,
    binary main_v295 main_v296 main_v297 addf,
    binary main_v30 main_v179 main_v298 mulf,
    binary main_v297 main_v298 main_v299 addf,
    binary main_v28 main_v244 main_v300 mulf,
    binary main_v36 main_v38 main_v301 mulf,
    binary main_v300 main_v301 main_v302 addf,
    binary main_v34 main_v154 main_v303 mulf,
    binary main_v302 main_v303 main_v304 addf,
    binary main_v26 main_v30 main_v305 mulf,
    binary main_v42 main_v89 main_v306 mulf,
    binary main_v305 main_v306 main_v307 addf,
    binary main_v32 main_v214 main_v308 mulf,
    binary main_v307 main_v308 main_v309 addf,
    binary main_v32 main_v164 main_v310 mulf,
    binary main_v26 main_v264 main_v311 mulf,
    binary main_v310 main_v311 main_v312 addf,
    binary main_v36 main_v119 main_v313 mulf,
    binary main_v312 main_v313 main_v314 addf,
    binary main_v28 main_v294 main_v315 mulf,
    binary main_v26 main_v289 main_v316 mulf,
    binary main_v315 main_v316 main_v317 addf,
    binary main_v40 main_v224 main_v318 mulf,
    binary main_v317 main_v318 main_v319 addf,
    binary main_v44 main_v40 main_v320 mulf,
    binary main_v38 main_v314 main_v321 mulf,
    binary main_v320 main_v321 main_v322 addf,
    binary main_v34 main_v194 main_v323 mulf,
    binary main_v322 main_v323 main_v324 addf,
    binary main_v40 main_v239 main_v325 mulf,
    binary main_v28 main_v219 main_v326 mulf,
    binary main_v325 main_v326 main_v327 addf,
    binary main_v26 main_v154 main_v328 mulf,
    binary main_v327 main_v328 main_v329 addf,
    binary main_v36 main_v269 main_v330 mulf,
    binary main_v28 main_v314 main_v331 mulf,
    binary main_v330 main_v331 main_v332 addf,
    binary main_v34 main_v309 main_v333 mulf,
    binary main_v332 main_v333 main_v334 addf,
    binary main_v28 main_v89 main_v335 mulf,
    binary main_v40 main_v38 main_v336 mulf,
    binary main_v335 main_v336 main_v337 addf,
    binary main_v26 main_v129 main_v338 mulf,
    binary main_v337 main_v338 main_v339 addf,
    binary main_v26 main_v259 main_v340 mulf,
    binary main_v40 main_v94 main_v341 mulf,
    binary main_v340 main_v341 main_v342 addf,
    binary main_v36 main_v144 main_v343 mulf,
    binary main_v342 main_v343 main_v344 addf,
    binary main_v34 main_v214 main_v345 mulf,
    binary main_v38 main_v72 main_v346 mulf ]

theorem part5_eq (c : Dev nD) : main_part5 (F := F) c = seq ops5 := rfl

theorem ops5_line : Ssa.Line 311 (ops5 : List (HloOp τ sig (Elt F))) 371 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part6.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops6 : List (HloOp τ sig (Elt F)) :=
  [ binary main_v345 main_v346 main_v347 addf,
    binary main_v44 main_v114 main_v348 mulf,
    binary main_v347 main_v348 main_v349 addf,
    binary main_v26 main_v259 main_v350 mulf,
    binary main_v38 main_v299 main_v351 mulf,
    binary main_v350 main_v351 main_v352 addf,
    binary main_v32 main_v349 main_v353 mulf,
    binary main_v352 main_v353 main_v354 addf,
    binary main_v26 main_v32 main_v355 mulf,
    binary main_v28 main_v334 main_v356 mulf,
    binary main_v355 main_v356 main_v357 addf,
    binary main_v34 main_v279 main_v358 mulf,
    binary main_v357 main_v358 main_v359 addf,
    binary main_v44 main_v279 main_v360 mulf,
    binary main_v30 main_v234 main_v361 mulf,
    binary main_v360 main_v361 main_v362 addf,
    binary main_v40 main_v264 main_v363 mulf,
    binary main_v362 main_v363 main_v364 addf,
    binary main_v36 main_v154 main_v365 mulf,
    binary main_v34 main_v134 main_v366 mulf,
    binary main_v365 main_v366 main_v367 addf,
    binary main_v26 main_v56 main_v368 mulf,
    binary main_v367 main_v368 main_v369 addf,
    binary main_v36 main_v249 main_v370 mulf,
    binary main_v40 main_v309 main_v371 mulf,
    binary main_v370 main_v371 main_v372 addf,
    binary main_v42 main_v369 main_v373 mulf,
    binary main_v372 main_v373 main_v374 addf,
    binary main_v42 main_v229 main_v375 mulf,
    binary main_v44 main_v244 main_v376 mulf,
    binary main_v375 main_v376 main_v377 addf,
    binary main_v36 main_v234 main_v378 mulf,
    binary main_v377 main_v378 main_v379 addf,
    binary main_v44 main_v89 main_v380 mulf,
    binary main_v42 main_v199 main_v381 mulf,
    binary main_v380 main_v381 main_v382 addf,
    binary main_v34 main_v129 main_v383 mulf,
    binary main_v382 main_v383 main_v384 addf,
    binary main_v42 main_v329 main_v385 mulf,
    binary main_v36 main_v48 main_v386 mulf,
    binary main_v385 main_v386 main_v387 addf,
    binary main_v32 main_v56 main_v388 mulf,
    binary main_v387 main_v388 main_v389 addf,
    binary main_v32 main_v89 main_v390 mulf,
    binary main_v38 main_v129 main_v391 mulf,
    binary main_v390 main_v391 main_v392 addf,
    binary main_v34 main_v349 main_v393 mulf,
    binary main_v392 main_v393 main_v394 addf,
    binary main_v36 main_v209 main_v395 mulf,
    binary main_v28 main_v214 main_v396 mulf,
    binary main_v395 main_v396 main_v397 addf,
    binary main_v38 main_v259 main_v398 mulf,
    binary main_v397 main_v398 main_v399 addf,
    binary main_v34 main_v89 main_v400 mulf,
    binary main_v44 main_v204 main_v401 mulf,
    binary main_v400 main_v401 main_v402 addf,
    binary main_v36 main_v26 main_v403 mulf,
    binary main_v402 main_v403 main_v404 addf,
    binary main_v26 main_v48 main_v405 mulf,
    binary main_v32 main_v38 main_v406 mulf ]

theorem part6_eq (c : Dev nD) : main_part6 (F := F) c = seq ops6 := rfl

theorem ops6_line : Ssa.Line 371 (ops6 : List (HloOp τ sig (Elt F))) 431 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part7.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops7 : List (HloOp τ sig (Elt F)) :=
  [ binary main_v405 main_v406 main_v407 addf,
    binary main_v42 main_v38 main_v408 mulf,
    binary main_v407 main_v408 main_v409 addf,
    binary main_v28 main_v134 main_v410 mulf,
    binary main_v26 main_v44 main_v411 mulf,
    binary main_v410 main_v411 main_v412 addf,
    binary main_v40 main_v349 main_v413 mulf,
    binary main_v412 main_v413 main_v414 addf,
    binary main_v40 main_v224 main_v415 mulf,
    binary main_v26 main_v369 main_v416 mulf,
    binary main_v415 main_v416 main_v417 addf,
    binary main_v30 main_v94 main_v418 mulf,
    binary main_v417 main_v418 main_v419 addf,
    binary main_v44 main_v229 main_v420 mulf,
    binary main_v26 main_v189 main_v421 mulf,
    binary main_v420 main_v421 main_v422 addf,
    binary main_v32 main_v119 main_v423 mulf,
    binary main_v422 main_v423 main_v424 addf,
    binary main_v40 main_v299 main_v425 mulf,
    binary main_v30 main_v48 main_v426 mulf,
    binary main_v425 main_v426 main_v427 addf,
    binary main_v38 main_v56 main_v428 mulf,
    binary main_v427 main_v428 main_v429 addf,
    binary main_v30 main_v369 main_v430 mulf,
    binary main_v28 main_v119 main_v431 mulf,
    binary main_v430 main_v431 main_v432 addf,
    binary main_v44 main_v404 main_v433 mulf,
    binary main_v432 main_v433 main_v434 addf,
    binary main_v28 main_v32 main_v435 mulf,
    binary main_v42 main_v294 main_v436 mulf,
    binary main_v435 main_v436 main_v437 addf,
    binary main_v30 main_v324 main_v438 mulf,
    binary main_v437 main_v438 main_v439 addf,
    binary main_v40 main_v76 main_v440 mulf,
    binary main_v32 main_v274 main_v441 mulf,
    binary main_v440 main_v441 main_v442 addf,
    binary main_v36 main_v44 main_v443 mulf,
    binary main_v442 main_v443 main_v444 addf,
    binary main_v36 main_v139 main_v445 mulf,
    binary main_v44 main_v389 main_v446 mulf,
    binary main_v445 main_v446 main_v447 addf,
    binary main_v42 main_v124 main_v448 mulf,
    binary main_v447 main_v448 main_v449 addf,
    binary main_v26 main_v344 main_v450 mulf,
    binary main_v32 main_v284 main_v451 mulf,
    binary main_v450 main_v451 main_v452 addf,
    binary main_v28 main_v174 main_v453 mulf,
    binary main_v452 main_v453 main_v454 addf,
    binary main_v30 main_v334 main_v455 mulf,
    binary main_v28 main_v28 main_v456 mulf,
    binary main_v455 main_v456 main_v457 addf,
    binary main_v44 main_v134 main_v458 mulf,
    binary main_v457 main_v458 main_v459 addf,
    binary main_v28 main_v359 main_v460 mulf,
    binary main_v30 main_v324 main_v461 mulf,
    binary main_v460 main_v461 main_v462 addf,
    binary main_v34 main_v419 main_v463 mulf,
    binary main_v462 main_v463 main_v464 addf,
    binary main_v38 main_v134 main_v465 mulf,
    binary main_v40 main_v459 main_v466 mulf ]

theorem part7_eq (c : Dev nD) : main_part7 (F := F) c = seq ops7 := rfl

theorem ops7_line : Ssa.Line 431 (ops7 : List (HloOp τ sig (Elt F))) 491 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part8.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops8 : List (HloOp τ sig (Elt F)) :=
  [ binary main_v465 main_v466 main_v467 addf,
    binary main_v30 main_v174 main_v468 mulf,
    binary main_v467 main_v468 main_v469 addf,
    binary main_v38 main_v424 main_v470 mulf,
    binary main_v30 main_v174 main_v471 mulf,
    binary main_v470 main_v471 main_v472 addf,
    binary main_v44 main_v304 main_v473 mulf,
    binary main_v472 main_v473 main_v474 addf,
    binary main_v30 main_v334 main_v475 mulf,
    binary main_v34 main_v84 main_v476 mulf,
    binary main_v475 main_v476 main_v477 addf,
    binary main_v32 main_v99 main_v478 mulf,
    binary main_v477 main_v478 main_v479 addf,
    binary main_v32 main_v94 main_v480 mulf,
    binary main_v44 main_v30 main_v481 mulf,
    binary main_v480 main_v481 main_v482 addf,
    binary main_v38 main_v42 main_v483 mulf,
    binary main_v482 main_v483 main_v484 addf,
    binary main_v40 main_v179 main_v485 mulf,
    binary main_v30 main_v164 main_v486 mulf,
    binary main_v485 main_v486 main_v487 addf,
    binary main_v44 main_v429 main_v488 mulf,
    binary main_v487 main_v488 main_v489 addf,
    binary main_v36 main_v404 main_v490 mulf,
    binary main_v32 main_v32 main_v491 mulf,
    binary main_v490 main_v491 main_v492 addf,
    binary main_v40 main_v374 main_v493 mulf,
    binary main_v492 main_v493 main_v494 addf,
    binary main_v26 main_v76 main_v495 mulf,
    binary main_v42 main_v494 main_v496 mulf,
    binary main_v495 main_v496 main_v497 addf,
    binary main_v32 main_v434 main_v498 mulf,
    binary main_v497 main_v498 main_v499 addf,
    binary main_v26 main_v84 main_v500 mulf,
    binary main_v28 main_v52 main_v501 mulf,
    binary main_v500 main_v501 main_v502 addf,
    binary main_v42 main_v474 main_v503 mulf,
    binary main_v502 main_v503 main_v504 addf,
    binary main_v34 main_v72 main_v505 mulf,
    binary main_v32 main_v104 main_v506 mulf,
    binary main_v505 main_v506 main_v507 addf,
    binary main_v30 main_v439 main_v508 mulf,
    binary main_v507 main_v508 main_v509 addf,
    binary main_v26 main_v244 main_v510 mulf,
    binary main_v38 main_v499 main_v511 mulf,
    binary main_v510 main_v511 main_v512 addf,
    binary main_v42 main_v244 main_v513 mulf,
    binary main_v512 main_v513 main_v514 addf,
    binary main_v34 main_v329 main_v515 mulf,
    binary main_v42 main_v419 main_v516 mulf,
    binary main_v515 main_v516 main_v517 addf,
    binary main_v26 main_v274 main_v518 mulf,
    binary main_v517 main_v518 main_v519 addf,
    binary main_v44 main_v504 main_v520 mulf,
    binary main_v42 main_v304 main_v521 mulf,
    binary main_v520 main_v521 main_v522 addf,
    binary main_v26 main_v284 main_v523 mulf,
    binary main_v522 main_v523 main_v524 addf,
    binary main_v32 main_v52 main_v525 mulf,
    binary main_v42 main_v449 main_v526 mulf ]

theorem part8_eq (c : Dev nD) : main_part8 (F := F) c = seq ops8 := rfl

theorem ops8_line : Ssa.Line 491 (ops8 : List (HloOp τ sig (Elt F))) 551 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part9.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops9 : List (HloOp τ sig (Elt F)) :=
  [ binary main_v525 main_v526 main_v527 addf,
    binary main_v38 main_v244 main_v528 mulf,
    binary main_v527 main_v528 main_v529 addf,
    binary main_v38 main_v414 main_v530 mulf,
    binary main_v36 main_v379 main_v531 mulf,
    binary main_v530 main_v531 main_v532 addf,
    binary main_v34 main_v314 main_v533 mulf,
    binary main_v532 main_v533 main_v534 addf,
    binary main_v42 main_v28 main_v535 mulf,
    binary main_v26 main_v72 main_v536 mulf,
    binary main_v535 main_v536 main_v537 addf,
    binary main_v34 main_v154 main_v538 mulf,
    binary main_v537 main_v538 main_v539 addf,
    binary main_v44 main_v104 main_v540 mulf,
    binary main_v42 main_v329 main_v541 mulf,
    binary main_v540 main_v541 main_v542 addf,
    binary main_v34 main_v144 main_v543 mulf,
    binary main_v542 main_v543 main_v544 addf,
    binary main_v30 main_v514 main_v545 mulf,
    binary main_v40 main_v389 main_v546 mulf,
    binary main_v545 main_v546 main_v547 addf,
    binary main_v34 main_v339 main_v548 mulf,
    binary main_v547 main_v548 main_v549 addf,
    binary main_v44 main_v274 main_v550 mulf,
    binary main_v42 main_v99 main_v551 mulf,
    binary main_v550 main_v551 main_v552 addf,
    binary main_v34 main_v68 main_v553 mulf,
    binary main_v552 main_v553 main_v554 addf,
    binary main_v32 main_v379 main_v555 mulf,
    binary main_v36 main_v89 main_v556 mulf,
    binary main_v555 main_v556 main_v557 addf,
    binary main_v38 main_v344 main_v558 mulf,
    binary main_v557 main_v558 main_v559 addf,
    binary main_v26 main_v464 main_v560 mulf,
    binary main_v38 main_v539 main_v561 mulf,
    binary main_v560 main_v561 main_v562 addf,
    binary main_v30 main_v399 main_v563 mulf,
    binary main_v562 main_v563 main_v564 addf,
    binary main_v32 main_v319 main_v565 mulf,
    binary main_v44 main_v224 main_v566 mulf,
    binary main_v565 main_v566 main_v567 addf,
    binary main_v30 main_v76 main_v568 mulf,
    binary main_v567 main_v568 main_v569 addf,
    binary main_v28 main_v94 main_v570 mulf,
    binary main_v32 main_v159 main_v571 mulf,
    binary main_v570 main_v571 main_v572 addf,
    binary main_v40 main_v149 main_v573 mulf,
    binary main_v572 main_v573 main_v574 addf,
    binary main_v38 main_v494 main_v575 mulf,
    binary main_v34 main_v459 main_v576 mulf,
    binary main_v575 main_v576 main_v577 addf,
    binary main_v28 main_v424 main_v578 mulf,
    binary main_v577 main_v578 main_v579 addf,
    binary main_v40 main_v76 main_v580 mulf,
    binary main_v42 main_v189 main_v581 mulf,
    binary main_v580 main_v581 main_v582 addf,
    binary main_v26 main_v564 main_v583 mulf,
    binary main_v582 main_v583 main_v584 addf,
    binary main_v42 main_v324 main_v585 mulf,
    binary main_v38 main_v344 main_v586 mulf ]

theorem part9_eq (c : Dev nD) : main_part9 (F := F) c = seq ops9 := rfl

theorem ops9_line : Ssa.Line 551 (ops9 : List (HloOp τ sig (Elt F))) 611 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part10.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops10 : List (HloOp τ sig (Elt F)) :=
  [ binary main_v585 main_v586 main_v587 addf,
    binary main_v44 main_v389 main_v588 mulf,
    binary main_v587 main_v588 main_v589 addf,
    binary main_v40 main_v174 main_v590 mulf,
    binary main_v32 main_v584 main_v591 mulf,
    binary main_v590 main_v591 main_v592 addf,
    binary main_v38 main_v124 main_v593 mulf,
    binary main_v592 main_v593 main_v594 addf,
    binary main_v28 main_v394 main_v595 mulf,
    binary main_v36 main_v449 main_v596 mulf,
    binary main_v595 main_v596 main_v597 addf,
    binary main_v30 main_v544 main_v598 mulf,
    binary main_v597 main_v598 main_v599 addf,
    binary main_v30 main_v26 main_v600 mulf,
    binary main_v40 main_v409 main_v601 mulf,
    binary main_v600 main_v601 main_v602 addf,
    binary main_v28 main_v534 main_v603 mulf,
    binary main_v602 main_v603 main_v604 addf,
    binary main_v42 main_v34 main_v605 mulf,
    binary main_v26 main_v514 main_v606 mulf,
    binary main_v605 main_v606 main_v607 addf,
    binary main_v44 main_v169 main_v608 mulf,
    binary main_v607 main_v608 main_v609 addf,
    binary main_v42 main_v274 main_v610 mulf,
    binary main_v28 main_v44 main_v611 mulf,
    binary main_v610 main_v611 main_v612 addf,
    binary main_v34 main_v239 main_v613 mulf,
    binary main_v612 main_v613 main_v614 addf,
    binary main_v40 main_v139 main_v615 mulf,
    binary main_v36 main_v559 main_v616 mulf,
    binary main_v615 main_v616 main_v617 addf,
    binary main_v30 main_v84 main_v618 mulf,
    binary main_v617 main_v618 main_v619 addf,
    binary main_v40 main_v134 main_v620 mulf,
    binary main_v30 main_v124 main_v621 mulf,
    binary main_v620 main_v621 main_v622 addf,
    binary main_v28 main_v32 main_v623 mulf,
    binary main_v622 main_v623 main_v624 addf,
    binary main_v42 main_v519 main_v625 mulf,
    binary main_v30 main_v359 main_v626 mulf,
    binary main_v625 main_v626 main_v627 addf,
    binary main_v44 main_v134 main_v628 mulf,
    binary main_v627 main_v628 main_v629 addf,
    binary main_v36 main_v30 main_v630 mulf,
    binary main_v32 main_v319 main_v631 mulf,
    binary main_v630 main_v631 main_v632 addf,
    binary main_v44 main_v184 main_v633 mulf,
    binary main_v632 main_v633 main_v634 addf,
    binary main_v40 main_v48 main_v635 mulf,
    binary main_v38 main_v519 main_v636 mulf,
    binary main_v635 main_v636 main_v637 addf,
    binary main_v44 main_v149 main_v638 mulf,
    binary main_v637 main_v638 main_v639 addf,
    binary main_v44 main_v68 main_v640 mulf,
    binary main_v26 main_v80 main_v641 mulf,
    binary main_v640 main_v641 main_v642 addf,
    binary main_v40 main_v199 main_v643 mulf,
    binary main_v642 main_v643 main_v644 addf,
    binary main_v42 main_v484 main_v645 mulf,
    binary main_v38 main_v534 main_v646 mulf ]

theorem part10_eq (c : Dev nD) : main_part10 (F := F) c = seq ops10 := rfl

theorem ops10_line : Ssa.Line 611 (ops10 : List (HloOp τ sig (Elt F))) 671 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part11.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops11 : List (HloOp τ sig (Elt F)) :=
  [ binary main_v645 main_v646 main_v647 addf,
    binary main_v34 main_v89 main_v648 mulf,
    binary main_v647 main_v648 main_v649 addf,
    binary main_v44 main_v544 main_v650 mulf,
    binary main_v26 main_v124 main_v651 mulf,
    binary main_v650 main_v651 main_v652 addf,
    binary main_v40 main_v649 main_v653 mulf,
    binary main_v652 main_v653 main_v654 addf,
    binary main_v34 main_v374 main_v655 mulf,
    binary main_v28 main_v269 main_v656 mulf,
    binary main_v655 main_v656 main_v657 addf,
    binary main_v30 main_v289 main_v658 mulf,
    binary main_v657 main_v658 main_v659 addf,
    binary main_v28 main_v219 main_v660 mulf,
    binary main_v32 main_v459 main_v661 mulf,
    binary main_v660 main_v661 main_v662 addf,
    binary main_v30 main_v409 main_v663 mulf,
    binary main_v662 main_v663 main_v664 addf,
    binary main_v34 main_v459 main_v665 mulf,
    binary main_v26 main_v654 main_v666 mulf,
    binary main_v665 main_v666 main_v667 addf,
    binary main_v36 main_v594 main_v668 mulf,
    binary main_v667 main_v668 main_v669 addf,
    binary main_v38 main_v559 main_v670 mulf,
    binary main_v32 main_v579 main_v671 mulf,
    binary main_v670 main_v671 main_v672 addf,
    binary main_v26 main_v229 main_v673 mulf,
    binary main_v672 main_v673 main_v674 addf,
    binary main_v30 main_v374 main_v675 mulf,
    binary main_v26 main_v529 main_v676 mulf,
    binary main_v675 main_v676 main_v677 addf,
    binary main_v34 main_v469 main_v678 mulf,
    binary main_v677 main_v678 main_v679 addf,
    binary main_v38 main_v42 main_v680 mulf,
    binary main_v44 main_v309 main_v681 mulf,
    binary main_v680 main_v681 main_v682 addf,
    binary main_v28 main_v569 main_v683 mulf,
    binary main_v682 main_v683 main_v684 addf,
    binary main_v44 main_v529 main_v685 mulf,
    binary main_v38 main_v129 main_v686 mulf,
    binary main_v685 main_v686 main_v687 addf,
    binary main_v28 main_v579 main_v688 mulf,
    binary main_v687 main_v688 main_v689 addf,
    binary main_v42 main_v584 main_v690 mulf,
    binary main_v34 main_v344 main_v691 mulf,
    binary main_v690 main_v691 main_v692 addf,
    binary main_v32 main_v134 main_v693 mulf,
    binary main_v692 main_v693 main_v694 addf,
    binary main_v38 main_v654 main_v695 mulf,
    binary main_v30 main_v244 main_v696 mulf,
    binary main_v695 main_v696 main_v697 addf,
    binary main_v34 main_v294 main_v698 mulf,
    binary main_v697 main_v698 main_v699 addf,
    binary main_v30 main_v284 main_v700 mulf,
    binary main_v44 main_v76 main_v701 mulf,
    binary main_v700 main_v701 main_v702 addf,
    binary main_v38 main_v289 main_v703 mulf,
    binary main_v702 main_v703 main_v704 addf,
    binary main_v32 main_v409 main_v705 mulf,
    binary main_v38 main_v419 main_v706 mulf ]

theorem part11_eq (c : Dev nD) : main_part11 (F := F) c = seq ops11 := rfl

theorem ops11_line : Ssa.Line 671 (ops11 : List (HloOp τ sig (Elt F))) 731 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part12.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops12 : List (HloOp τ sig (Elt F)) :=
  [ binary main_v705 main_v706 main_v707 addf,
    binary main_v26 main_v48 main_v708 mulf,
    binary main_v707 main_v708 main_v709 addf,
    binary main_v44 main_v584 main_v710 mulf,
    binary main_v30 main_v249 main_v711 mulf,
    binary main_v710 main_v711 main_v712 addf,
    binary main_v34 main_v149 main_v713 mulf,
    binary main_v712 main_v713 main_v714 addf,
    binary main_v44 main_v654 main_v715 mulf,
    binary main_v38 main_v599 main_v716 mulf,
    binary main_v715 main_v716 main_v717 addf,
    binary main_v42 main_v429 main_v718 mulf,
    binary main_v717 main_v718 main_v719 addf,
    binary main_v30 main_v459 main_v720 mulf,
    binary main_v32 main_v354 main_v721 mulf,
    binary main_v720 main_v721 main_v722 addf,
    binary main_v42 main_v529 main_v723 mulf,
    binary main_v722 main_v723 main_v724 addf,
    binary main_v30 main_v474 main_v725 mulf,
    binary main_v28 main_v219 main_v726 mulf,
    binary main_v725 main_v726 main_v727 addf,
    binary main_v42 main_v529 main_v728 mulf,
    binary main_v727 main_v728 main_v729 addf,
    binary main_v34 main_v454 main_v730 mulf,
    binary main_v38 main_v494 main_v731 mulf,
    binary main_v730 main_v731 main_v732 addf,
    binary main_v40 main_v589 main_v733 mulf,
    binary main_v732 main_v733 main_v734 addf,
    binary main_v32 main_v119 main_v735 mulf,
    binary main_v36 main_v544 main_v736 mulf,
    binary main_v735 main_v736 main_v737 addf,
    binary main_v44 main_v404 main_v738 mulf,
    binary main_v737 main_v738 main_v739 addf,
    binary main_v42 main_v244 main_v740 mulf,
    binary main_v28 main_v234 main_v741 mulf,
    binary main_v740 main_v741 main_v742 addf,
    binary main_v44 main_v144 main_v743 mulf,
    binary main_v742 main_v743 main_v744 addf,
    binary main_v38 main_v214 main_v745 mulf,
    binary main_v36 main_v624 main_v746 mulf,
    binary main_v745 main_v746 main_v747 addf,
    binary main_v40 main_v34 main_v748 mulf,
    binary main_v747 main_v748 main_v749 addf,
    binary main_v36 main_v694 main_v750 mulf,
    binary main_v40 main_v34 main_v751 mulf,
    binary main_v750 main_v751 main_v752 addf,
    binary main_v34 main_v68 main_v753 mulf,
    binary main_v752 main_v753 main_v754 addf,
    binary main_v36 main_v629 main_v755 mulf,
    binary main_v26 main_v464 main_v756 mulf,
    binary main_v755 main_v756 main_v757 addf,
    binary main_v40 main_v539 main_v758 mulf,
    binary main_v757 main_v758 main_v759 addf,
    binary main_v36 main_v174 main_v760 mulf,
    binary main_v42 main_v584 main_v761 mulf,
    binary main_v760 main_v761 main_v762 addf,
    binary main_v26 main_v284 main_v763 mulf,
    binary main_v762 main_v763 main_v764 addf,
    binary main_v30 main_v249 main_v765 mulf,
    binary main_v38 main_v199 main_v766 mulf ]

theorem part12_eq (c : Dev nD) : main_part12 (F := F) c = seq ops12 := rfl

theorem ops12_line : Ssa.Line 731 (ops12 : List (HloOp τ sig (Elt F))) 791 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part13.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops13 : List (HloOp τ sig (Elt F)) :=
  [ binary main_v765 main_v766 main_v767 addf,
    binary main_v34 main_v679 main_v768 mulf,
    binary main_v767 main_v768 main_v769 addf,
    binary main_v32 main_v599 main_v770 mulf,
    binary main_v44 main_v99 main_v771 mulf,
    binary main_v770 main_v771 main_v772 addf,
    binary main_v36 main_v449 main_v773 mulf,
    binary main_v772 main_v773 main_v774 addf,
    binary main_v42 main_v599 main_v775 mulf,
    binary main_v34 main_v399 main_v776 mulf,
    binary main_v775 main_v776 main_v777 addf,
    binary main_v38 main_v499 main_v778 mulf,
    binary main_v777 main_v778 main_v779 addf,
    binary main_v26 main_v309 main_v780 mulf,
    binary main_v30 main_v324 main_v781 mulf,
    binary main_v780 main_v781 main_v782 addf,
    binary main_v34 main_v259 main_v783 mulf,
    binary main_v782 main_v783 main_v784 addf,
    binary main_v40 main_v709 main_v785 mulf,
    binary main_v26 main_v654 main_v786 mulf,
    binary main_v785 main_v786 main_v787 addf,
    binary main_v30 main_v469 main_v788 mulf,
    binary main_v787 main_v788 main_v789 addf,
    binary main_v36 main_v464 main_v790 mulf,
    binary main_v40 main_v529 main_v791 mulf,
    binary main_v790 main_v791 main_v792 addf,
    binary main_v42 main_v684 main_v793 mulf,
    binary main_v792 main_v793 main_v794 addf,
    binary main_v34 main_v284 main_v795 mulf,
    binary main_v36 main_v68 main_v796 mulf,
    binary main_v795 main_v796 main_v797 addf,
    binary main_v32 main_v34 main_v798 mulf,
    binary main_v797 main_v798 main_v799 addf,
    binary main_v44 main_v724 main_v800 mulf,
    binary main_v32 main_v299 main_v801 mulf,
    binary main_v800 main_v801 main_v802 addf,
    binary main_v40 main_v134 main_v803 mulf,
    binary main_v802 main_v803 main_v804 addf,
    binary main_v36 main_v264 main_v805 mulf,
    binary main_v34 main_v48 main_v806 mulf,
    binary main_v805 main_v806 main_v807 addf,
    binary main_v38 main_v109 main_v808 mulf,
    binary main_v807 main_v808 main_v809 addf,
    binary main_v38 main_v749 main_v810 mulf,
    binary main_v34 main_v394 main_v811 mulf,
    binary main_v810 main_v811 main_v812 addf,
    binary main_v26 main_v94 main_v813 mulf,
    binary main_v812 main_v813 main_v814 addf,
    binary main_v34 main_v699 main_v815 mulf,
    binary main_v42 main_v149 main_v816 mulf,
    binary main_v815 main_v816 main_v817 addf,
    binary main_v38 main_v594 main_v818 mulf,
    binary main_v817 main_v818 main_v819 addf,
    binary main_v44 main_v749 main_v820 mulf,
    binary main_v32 main_v724 main_v821 mulf,
    binary main_v820 main_v821 main_v822 addf,
    binary main_v38 main_v679 main_v823 mulf,
    binary main_v822 main_v823 main_v824 addf,
    binary main_v36 main_v294 main_v825 mulf,
    binary main_v30 main_v574 main_v826 mulf ]

theorem part13_eq (c : Dev nD) : main_part13 (F := F) c = seq ops13 := rfl

theorem ops13_line : Ssa.Line 791 (ops13 : List (HloOp τ sig (Elt F))) 851 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part14.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops14 : List (HloOp τ sig (Elt F)) :=
  [ binary main_v825 main_v826 main_v827 addf,
    binary main_v28 main_v56 main_v828 mulf,
    binary main_v827 main_v828 main_v829 addf,
    binary main_v42 main_v434 main_v830 mulf,
    binary main_v26 main_v494 main_v831 mulf,
    binary main_v830 main_v831 main_v832 addf,
    binary main_v34 main_v589 main_v833 mulf,
    binary main_v832 main_v833 main_v834 addf,
    binary main_v28 main_v619 main_v835 mulf,
    binary main_v36 main_v229 main_v836 mulf,
    binary main_v835 main_v836 main_v837 addf,
    binary main_v34 main_v359 main_v838 mulf,
    binary main_v837 main_v838 main_v839 addf,
    binary main_v38 main_v834 main_v840 mulf,
    binary main_v32 main_v444 main_v841 mulf,
    binary main_v840 main_v841 main_v842 addf,
    binary main_v34 main_v644 main_v843 mulf,
    binary main_v842 main_v843 main_v844 addf,
    binary main_v30 main_v619 main_v845 mulf,
    binary main_v42 main_v344 main_v846 mulf,
    binary main_v845 main_v846 main_v847 addf,
    binary main_v28 main_v749 main_v848 mulf,
    binary main_v847 main_v848 main_v849 addf,
    binary main_v42 main_v734 main_v850 mulf,
    binary main_v32 main_v34 main_v851 mulf,
    binary main_v850 main_v851 main_v852 addf,
    binary main_v44 main_v784 main_v853 mulf,
    binary main_v852 main_v853 main_v854 addf,
    binary main_v26 main_v564 main_v855 mulf,
    binary main_v28 main_v399 main_v856 mulf,
    binary main_v855 main_v856 main_v857 addf,
    binary main_v42 main_v104 main_v858 mulf,
    binary main_v857 main_v858 main_v859 addf,
    binary main_v40 main_v589 main_v860 mulf,
    binary main_v30 main_v574 main_v861 mulf,
    binary main_v860 main_v861 main_v862 addf,
    binary main_v38 main_v844 main_v863 mulf,
    binary main_v862 main_v863 main_v864 addf,
    binary main_v32 main_v579 main_v865 mulf,
    binary main_v34 main_v844 main_v866 mulf,
    binary main_v865 main_v866 main_v867 addf,
    binary main_v36 main_v68 main_v868 mulf,
    binary main_v867 main_v868 main_v869 addf,
    binary main_v42 main_v204 main_v870 mulf,
    binary main_v44 main_v614 main_v871 mulf,
    binary main_v870 main_v871 main_v872 addf,
    binary main_v38 main_v864 main_v873 mulf,
    binary main_v872 main_v873 main_v874 addf,
    binary main_v28 main_v404 main_v875 mulf,
    binary main_v26 main_v849 main_v876 mulf,
    binary main_v875 main_v876 main_v877 addf,
    binary main_v32 main_v544 main_v878 mulf,
    binary main_v877 main_v878 main_v879 addf,
    binary main_v30 main_v44 main_v880 mulf,
    binary main_v36 main_v539 main_v881 mulf,
    binary main_v880 main_v881 main_v882 addf,
    binary main_v32 main_v809 main_v883 mulf,
    binary main_v882 main_v883 main_v884 addf,
    binary main_v42 main_v424 main_v885 mulf,
    binary main_v38 main_v32 main_v886 mulf ]

theorem part14_eq (c : Dev nD) : main_part14 (F := F) c = seq ops14 := rfl

theorem ops14_line : Ssa.Line 851 (ops14 : List (HloOp τ sig (Elt F))) 911 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part15.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops15 : List (HloOp τ sig (Elt F)) :=
  [ binary main_v885 main_v886 main_v887 addf,
    binary main_v28 main_v544 main_v888 mulf,
    binary main_v887 main_v888 main_v889 addf,
    binary main_v40 main_v254 main_v890 mulf,
    binary main_v28 main_v119 main_v891 mulf,
    binary main_v890 main_v891 main_v892 addf,
    binary main_v42 main_v554 main_v893 mulf,
    binary main_v892 main_v893 main_v894 addf,
    binary main_v26 main_v364 main_v895 mulf,
    binary main_v42 main_v469 main_v896 mulf,
    binary main_v895 main_v896 main_v897 addf,
    binary main_v28 main_v819 main_v898 mulf,
    binary main_v897 main_v898 main_v899 addf,
    binary main_v30 main_v564 main_v900 mulf,
    binary main_v40 main_v524 main_v901 mulf,
    binary main_v900 main_v901 main_v902 addf,
    binary main_v26 main_v484 main_v903 mulf,
    binary main_v902 main_v903 main_v904 addf,
    binary main_v32 main_v289 main_v905 mulf,
    binary main_v42 main_v224 main_v906 mulf,
    binary main_v905 main_v906 main_v907 addf,
    binary main_v28 main_v704 main_v908 mulf,
    binary main_v907 main_v908 main_v909 addf,
    binary main_v44 main_v324 main_v910 mulf,
    binary main_v42 main_v144 main_v911 mulf,
    binary main_v910 main_v911 main_v912 addf,
    binary main_v40 main_v134 main_v913 mulf,
    binary main_v912 main_v913 main_v914 addf,
    binary main_v44 main_v324 main_v915 mulf,
    binary main_v40 main_v89 main_v916 mulf,
    binary main_v915 main_v916 main_v917 addf,
    binary main_v34 main_v584 main_v918 mulf,
    binary main_v917 main_v918 main_v919 addf,
    binary main_v34 main_v104 main_v920 mulf,
    binary main_v28 main_v159 main_v921 mulf,
    binary main_v920 main_v921 main_v922 addf,
    binary main_v44 main_v149 main_v923 mulf,
    binary main_v922 main_v923 main_v924 addf,
    binary main_v42 main_v76 main_v925 mulf,
    binary main_v30 main_v889 main_v926 mulf,
    binary main_v925 main_v926 main_v927 addf,
    binary main_v40 main_v669 main_v928 mulf,
    binary main_v927 main_v928 main_v929 addf,
    binary main_v26 main_v779 main_v930 mulf,
    binary main_v32 main_v344 main_v931 mulf,
    binary main_v930 main_v931 main_v932 addf,
    binary main_v42 main_v279 main_v933 mulf,
    binary main_v932 main_v933 main_v934 addf,
    binary main_v30 main_v644 main_v935 mulf,
    binary main_v26 main_v569 main_v936 mulf,
    binary main_v935 main_v936 main_v937 addf,
    binary main_v44 main_v404 main_v938 mulf,
    binary main_v937 main_v938 main_v939 addf,
    binary main_v30 main_v409 main_v940 mulf,
    binary main_v42 main_v479 main_v941 mulf,
    binary main_v940 main_v941 main_v942 addf,
    binary main_v26 main_v72 main_v943 mulf,
    binary main_v942 main_v943 main_v944 addf,
    binary main_v34 main_v38 main_v945 mulf,
    binary main_v30 main_v474 main_v946 mulf ]

theorem part15_eq (c : Dev nD) : main_part15 (F := F) c = seq ops15 := rfl

theorem ops15_line : Ssa.Line 911 (ops15 : List (HloOp τ sig (Elt F))) 971 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part16.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops16 : List (HloOp τ sig (Elt F)) :=
  [ binary main_v945 main_v946 main_v947 addf,
    binary main_v26 main_v559 main_v948 mulf,
    binary main_v947 main_v948 main_v949 addf,
    binary main_v36 main_v734 main_v950 mulf,
    binary main_v38 main_v38 main_v951 mulf,
    binary main_v950 main_v951 main_v952 addf,
    binary main_v40 main_v409 main_v953 mulf,
    binary main_v952 main_v953 main_v954 addf,
    binary main_v34 main_v40 main_v955 mulf,
    binary main_v42 main_v589 main_v956 mulf,
    binary main_v955 main_v956 main_v957 addf,
    binary main_v44 main_v389 main_v958 mulf,
    binary main_v957 main_v958 main_v959 addf,
    binary main_v32 main_v139 main_v960 mulf,
    binary main_v26 main_v479 main_v961 mulf,
    binary main_v960 main_v961 main_v962 addf,
    binary main_v40 main_v32 main_v963 mulf,
    binary main_v962 main_v963 main_v964 addf,
    binary main_v42 main_v924 main_v965 mulf,
    binary main_v40 main_v94 main_v966 mulf,
    binary main_v965 main_v966 main_v967 addf,
    binary main_v30 main_v304 main_v968 mulf,
    binary main_v967 main_v968 main_v969 addf,
    binary main_v26 main_v894 main_v970 mulf,
    binary main_v32 main_v739 main_v971 mulf,
    binary main_v970 main_v971 main_v972 addf,
    binary main_v34 main_v559 main_v973 mulf,
    binary main_v972 main_v973 main_v974 addf,
    binary main_v36 main_v659 main_v975 mulf,
    binary main_v40 main_v579 main_v976 mulf,
    binary main_v975 main_v976 main_v977 addf,
    binary main_v28 main_v849 main_v978 mulf,
    binary main_v977 main_v978 main_v979 addf,
    binary main_v40 main_v489 main_v980 mulf,
    binary main_v32 main_v519 main_v981 mulf,
    binary main_v980 main_v981 main_v982 addf,
    binary main_v28 main_v774 main_v983 mulf,
    binary main_v982 main_v983 main_v984 addf,
    binary main_v30 main_v704 main_v985 mulf,
    binary main_v34 main_v914 main_v986 mulf,
    binary main_v985 main_v986 main_v987 addf,
    binary main_v42 main_v644 main_v988 mulf,
    binary main_v987 main_v988 main_v989 addf,
    binary main_v30 main_v384 main_v990 mulf,
    binary main_v40 main_v52 main_v991 mulf,
    binary main_v990 main_v991 main_v992 addf,
    binary main_v28 main_v654 main_v993 mulf,
    binary main_v992 main_v993 main_v994 addf,
    binary main_v30 main_v764 main_v995 mulf,
    binary main_v42 main_v124 main_v996 mulf,
    binary main_v995 main_v996 main_v997 addf,
    binary main_v38 main_v134 main_v998 mulf,
    binary main_v997 main_v998 main_v999 addf,
    binary main_v36 main_v879 main_v1000 mulf,
    binary main_v26 main_v189 main_v1001 mulf,
    binary main_v1000 main_v1001 main_v1002 addf,
    binary main_v44 main_v979 main_v1003 mulf,
    binary main_v1002 main_v1003 main_v1004 addf,
    binary main_v42 main_v294 main_v1005 mulf,
    binary main_v30 main_v444 main_v1006 mulf ]

theorem part16_eq (c : Dev nD) : main_part16 (F := F) c = seq ops16 := rfl

theorem ops16_line : Ssa.Line 971 (ops16 : List (HloOp τ sig (Elt F))) 1031 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part17.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops17 : List (HloOp τ sig (Elt F)) :=
  [ binary main_v1005 main_v1006 main_v1007 addf,
    binary main_v36 main_v544 main_v1008 mulf,
    binary main_v1007 main_v1008 main_v1009 addf,
    binary main_v26 main_v984 main_v1010 mulf,
    binary main_v36 main_v269 main_v1011 mulf,
    binary main_v1010 main_v1011 main_v1012 addf,
    binary main_v34 main_v164 main_v1013 mulf,
    binary main_v1012 main_v1013 main_v1014 addf,
    binary main_v28 main_v174 main_v1015 mulf,
    binary main_v42 main_v36 main_v1016 mulf,
    binary main_v1015 main_v1016 main_v1017 addf,
    binary main_v30 main_v474 main_v1018 mulf,
    binary main_v1017 main_v1018 main_v1019 addf,
    binary main_v34 main_v934 main_v1020 mulf,
    binary main_v42 main_v959 main_v1021 mulf,
    binary main_v1020 main_v1021 main_v1022 addf,
    binary main_v32 main_v52 main_v1023 mulf,
    binary main_v1022 main_v1023 main_v1024 addf,
    binary main_v32 main_v444 main_v1025 mulf,
    binary main_v28 main_v38 main_v1026 mulf,
    binary main_v1025 main_v1026 main_v1027 addf,
    binary main_v40 main_v994 main_v1028 mulf,
    binary main_v1027 main_v1028 main_v1029 addf,
    binary main_v30 main_v299 main_v1030 mulf,
    binary main_v44 main_v974 main_v1031 mulf,
    binary main_v1030 main_v1031 main_v1032 addf,
    binary main_v40 main_v299 main_v1033 mulf,
    binary main_v1032 main_v1033 main_v1034 addf,
    binary main_v38 main_v60 main_v1035 mulf,
    binary main_v32 main_v324 main_v1036 mulf,
    binary main_v1035 main_v1036 main_v1037 addf,
    binary main_v40 main_v514 main_v1038 mulf,
    binary main_v1037 main_v1038 main_v1039 addf,
    binary main_v40 main_v269 main_v1040 mulf,
    binary main_v26 main_v279 main_v1041 mulf,
    binary main_v1040 main_v1041 main_v1042 addf,
    binary main_v42 main_v76 main_v1043 mulf,
    binary main_v1042 main_v1043 main_v1044 addf,
    binary main_v26 main_v449 main_v1045 mulf,
    binary main_v44 main_v349 main_v1046 mulf,
    binary main_v1045 main_v1046 main_v1047 addf,
    binary main_v42 main_v919 main_v1048 mulf,
    binary main_v1047 main_v1048 main_v1049 addf,
    binary main_v44 main_v874 main_v1050 mulf,
    binary main_v42 main_v89 main_v1051 mulf,
    binary main_v1050 main_v1051 main_v1052 addf,
    binary main_v28 main_v584 main_v1053 mulf,
    binary main_v1052 main_v1053 main_v1054 addf,
    binary main_v36 main_v964 main_v1055 mulf,
    binary main_v44 main_v779 main_v1056 mulf,
    binary main_v1055 main_v1056 main_v1057 addf,
    binary main_v32 main_v174 main_v1058 mulf,
    binary main_v1057 main_v1058 main_v1059 addf,
    binary main_v38 main_v784 main_v1060 mulf,
    binary main_v44 main_v409 main_v1061 mulf,
    binary main_v1060 main_v1061 main_v1062 addf,
    binary main_v34 main_v439 main_v1063 mulf,
    binary main_v1062 main_v1063 main_v1064 addf,
    binary main_v26 main_v604 main_v1065 mulf,
    binary main_v38 main_v684 main_v1066 mulf ]

theorem part17_eq (c : Dev nD) : main_part17 (F := F) c = seq ops17 := rfl

theorem ops17_line : Ssa.Line 1031 (ops17 : List (HloOp τ sig (Elt F))) 1091 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part18.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops18 : List (HloOp τ sig (Elt F)) :=
  [ binary main_v1065 main_v1066 main_v1067 addf,
    binary main_v28 main_v504 main_v1068 mulf,
    binary main_v1067 main_v1068 main_v1069 addf,
    binary main_v28 main_v129 main_v1070 mulf,
    binary main_v44 main_v674 main_v1071 mulf,
    binary main_v1070 main_v1071 main_v1072 addf,
    binary main_v40 main_v494 main_v1073 mulf,
    binary main_v1072 main_v1073 main_v1074 addf,
    binary main_v40 main_v604 main_v1075 mulf,
    binary main_v32 main_v284 main_v1076 mulf,
    binary main_v1075 main_v1076 main_v1077 addf,
    binary main_v36 main_v919 main_v1078 mulf,
    binary main_v1077 main_v1078 main_v1079 addf,
    binary main_v42 main_v26 main_v1080 mulf,
    binary main_v38 main_v40 main_v1081 mulf,
    binary main_v1080 main_v1081 main_v1082 addf,
    binary main_v34 main_v754 main_v1083 mulf,
    binary main_v1082 main_v1083 main_v1084 addf,
    binary main_v44 main_v819 main_v1085 mulf,
    binary main_v36 main_v839 main_v1086 mulf,
    binary main_v1085 main_v1086 main_v1087 addf,
    binary main_v26 main_v809 main_v1088 mulf,
    binary main_v1087 main_v1088 main_v1089 addf,
    binary main_v28 main_v36 main_v1090 mulf,
    binary main_v36 main_v189 main_v1091 mulf,
    binary main_v1090 main_v1091 main_v1092 addf,
    binary main_v26 main_v904 main_v1093 mulf,
    binary main_v1092 main_v1093 main_v1094 addf,
    binary main_v28 main_v659 main_v1095 mulf,
    binary main_v26 main_v429 main_v1096 mulf,
    binary main_v1095 main_v1096 main_v1097 addf,
    binary main_v40 main_v369 main_v1098 mulf,
    binary main_v1097 main_v1098 main_v1099 addf,
    binary main_v40 main_v929 main_v1100 mulf,
    binary main_v34 main_v624 main_v1101 mulf,
    binary main_v1100 main_v1101 main_v1102 addf,
    binary main_v32 main_v48 main_v1103 mulf,
    binary main_v1102 main_v1103 main_v1104 addf,
    binary main_v40 main_v814 main_v1105 mulf,
    binary main_v30 main_v64 main_v1106 mulf,
    binary main_v1105 main_v1106 main_v1107 addf,
    binary main_v38 main_v809 main_v1108 mulf,
    binary main_v1107 main_v1108 main_v1109 addf,
    binary main_v40 main_v72 main_v1110 mulf,
    binary main_v42 main_v72 main_v1111 mulf,
    binary main_v1110 main_v1111 main_v1112 addf,
    binary main_v36 main_v48 main_v1113 mulf,
    binary main_v1112 main_v1113 main_v1114 addf,
    binary main_v38 main_v839 main_v1115 mulf,
    binary main_v28 main_v224 main_v1116 mulf,
    binary main_v1115 main_v1116 main_v1117 addf,
    binary main_v44 main_v94 main_v1118 mulf,
    binary main_v1117 main_v1118 main_v1119 addf,
    binary main_v26 main_v184 main_v1120 mulf,
    binary main_v44 main_v824 main_v1121 mulf,
    binary main_v1120 main_v1121 main_v1122 addf,
    binary main_v38 main_v294 main_v1123 mulf,
    binary main_v1122 main_v1123 main_v1124 addf,
    binary main_v44 main_v659 main_v1125 mulf,
    binary main_v36 main_v969 main_v1126 mulf ]

theorem part18_eq (c : Dev nD) : main_part18 (F := F) c = seq ops18 := rfl

theorem ops18_line : Ssa.Line 1091 (ops18 : List (HloOp τ sig (Elt F))) 1151 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part19.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops19 : List (HloOp τ sig (Elt F)) :=
  [ binary main_v1125 main_v1126 main_v1127 addf,
    binary main_v32 main_v214 main_v1128 mulf,
    binary main_v1127 main_v1128 main_v1129 addf,
    binary main_v40 main_v114 main_v1130 mulf,
    binary main_v44 main_v60 main_v1131 mulf,
    binary main_v1130 main_v1131 main_v1132 addf,
    binary main_v32 main_v944 main_v1133 mulf,
    binary main_v1132 main_v1133 main_v1134 addf,
    binary main_v34 main_v114 main_v1135 mulf,
    binary main_v30 main_v56 main_v1136 mulf,
    binary main_v1135 main_v1136 main_v1137 addf,
    binary main_v38 main_v249 main_v1138 mulf,
    binary main_v1137 main_v1138 main_v1139 addf,
    binary main_v28 main_v979 main_v1140 mulf,
    binary main_v32 main_v584 main_v1141 mulf,
    binary main_v1140 main_v1141 main_v1142 addf,
    binary main_v40 main_v28 main_v1143 mulf,
    binary main_v1142 main_v1143 main_v1144 addf,
    binary main_v42 main_v159 main_v1145 mulf,
    binary main_v44 main_v539 main_v1146 mulf,
    binary main_v1145 main_v1146 main_v1147 addf,
    binary main_v32 main_v294 main_v1148 mulf,
    binary main_v1147 main_v1148 main_v1149 addf,
    binary main_v36 main_v544 main_v1150 mulf,
    binary main_v28 main_v44 main_v1151 mulf,
    binary main_v1150 main_v1151 main_v1152 addf,
    binary main_v30 main_v764 main_v1153 mulf,
    binary main_v1152 main_v1153 main_v1154 addf,
    binary main_v26 main_v774 main_v1155 mulf,
    binary main_v32 main_v379 main_v1156 mulf,
    binary main_v1155 main_v1156 main_v1157 addf,
    binary main_v34 main_v1044 main_v1158 mulf,
    binary main_v1157 main_v1158 main_v1159 addf,
    binary main_v40 main_v484 main_v1160 mulf,
    binary main_v42 main_v754 main_v1161 mulf,
    binary main_v1160 main_v1161 main_v1162 addf,
    binary main_v36 main_v624 main_v1163 mulf,
    binary main_v1162 main_v1163 main_v1164 addf,
    binary main_v40 main_v204 main_v1165 mulf,
    binary main_v26 main_v38 main_v1166 mulf,
    binary main_v1165 main_v1166 main_v1167 addf,
    binary main_v44 main_v694 main_v1168 mulf,
    binary main_v1167 main_v1168 main_v1169 addf,
    binary main_v32 main_v669 main_v1170 mulf,
    binary main_v44 main_v1164 main_v1171 mulf,
    binary main_v1170 main_v1171 main_v1172 addf,
    binary main_v40 main_v1024 main_v1173 mulf,
    binary main_v1172 main_v1173 main_v1174 addf,
    binary main_v28 main_v859 main_v1175 mulf,
    binary main_v26 main_v854 main_v1176 mulf,
    binary main_v1175 main_v1176 main_v1177 addf,
    binary main_v44 main_v474 main_v1178 mulf,
    binary main_v1177 main_v1178 main_v1179 addf,
    binary main_v32 main_v1179 main_v1180 mulf,
    binary main_v28 main_v694 main_v1181 mulf,
    binary main_v1180 main_v1181 main_v1182 addf,
    binary main_v36 main_v56 main_v1183 mulf,
    binary main_v1182 main_v1183 main_v1184 addf,
    binary main_v30 main_v284 main_v1185 mulf,
    binary main_v26 main_v989 main_v1186 mulf ]

theorem part19_eq (c : Dev nD) : main_part19 (F := F) c = seq ops19 := rfl

theorem ops19_line : Ssa.Line 1151 (ops19 : List (HloOp τ sig (Elt F))) 1211 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part20.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops20 : List (HloOp τ sig (Elt F)) :=
  [ binary main_v1185 main_v1186 main_v1187 addf,
    binary main_v38 main_v704 main_v1188 mulf,
    binary main_v1187 main_v1188 main_v1189 addf,
    binary main_v28 main_v554 main_v1190 mulf,
    binary main_v40 main_v52 main_v1191 mulf,
    binary main_v1190 main_v1191 main_v1192 addf,
    binary main_v36 main_v68 main_v1193 mulf,
    binary main_v1192 main_v1193 main_v1194 addf,
    binary main_v40 main_v444 main_v1195 mulf,
    binary main_v42 main_v1089 main_v1196 mulf,
    binary main_v1195 main_v1196 main_v1197 addf,
    binary main_v26 main_v1144 main_v1198 mulf,
    binary main_v1197 main_v1198 main_v1199 addf,
    binary main_v42 main_v394 main_v1200 mulf,
    binary main_v44 main_v879 main_v1201 mulf,
    binary main_v1200 main_v1201 main_v1202 addf,
    binary main_v26 main_v709 main_v1203 mulf,
    binary main_v1202 main_v1203 main_v1204 addf,
    binary main_v34 main_v60 main_v1205 mulf,
    binary main_v44 main_v989 main_v1206 mulf,
    binary main_v1205 main_v1206 main_v1207 addf,
    binary main_v36 main_v1149 main_v1208 mulf,
    binary main_v1207 main_v1208 main_v1209 addf,
    binary main_v42 main_v219 main_v1210 mulf,
    binary main_v26 main_v259 main_v1211 mulf,
    binary main_v1210 main_v1211 main_v1212 addf,
    binary main_v36 main_v879 main_v1213 mulf,
    binary main_v1212 main_v1213 main_v1214 addf,
    binary main_v26 main_v1209 main_v1215 mulf,
    binary main_v30 main_v159 main_v1216 mulf,
    binary main_v1215 main_v1216 main_v1217 addf,
    binary main_v42 main_v1099 main_v1218 mulf,
    binary main_v1217 main_v1218 main_v1219 addf,
    binary main_v40 main_v1174 main_v1220 mulf,
    binary main_v36 main_v1159 main_v1221 mulf,
    binary main_v1220 main_v1221 main_v1222 addf,
    binary main_v44 main_v439 main_v1223 mulf,
    binary main_v1222 main_v1223 main_v1224 addf,
    binary main_v36 main_v384 main_v1225 mulf,
    binary main_v26 main_v714 main_v1226 mulf,
    binary main_v1225 main_v1226 main_v1227 addf,
    binary main_v40 main_v84 main_v1228 mulf,
    binary main_v1227 main_v1228 main_v1229 addf,
    binary main_v26 main_v894 main_v1230 mulf,
    binary main_v30 main_v339 main_v1231 mulf,
    binary main_v1230 main_v1231 main_v1232 addf,
    binary main_v36 main_v1069 main_v1233 mulf,
    binary main_v1232 main_v1233 main_v1234 addf,
    binary main_v30 main_v38 main_v1235 mulf,
    binary main_v40 main_v429 main_v1236 mulf,
    binary main_v1235 main_v1236 main_v1237 addf,
    binary main_v28 main_v1219 main_v1238 mulf,
    binary main_v1237 main_v1238 main_v1239 addf,
    binary main_v38 main_v60 main_v1240 mulf,
    binary main_v40 main_v624 main_v1241 mulf,
    binary main_v1240 main_v1241 main_v1242 addf,
    binary main_v42 main_v554 main_v1243 mulf,
    binary main_v1242 main_v1243 main_v1244 addf,
    binary main_v40 main_v1199 main_v1245 mulf,
    binary main_v44 main_v799 main_v1246 mulf ]

theorem part20_eq (c : Dev nD) : main_part20 (F := F) c = seq ops20 := rfl

theorem ops20_line : Ssa.Line 1211 (ops20 : List (HloOp τ sig (Elt F))) 1271 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part21.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops21 : List (HloOp τ sig (Elt F)) :=
  [ binary main_v1245 main_v1246 main_v1247 addf,
    binary main_v26 main_v1129 main_v1248 mulf,
    binary main_v1247 main_v1248 main_v1249 addf,
    binary main_v42 main_v654 main_v1250 mulf,
    binary main_v36 main_v404 main_v1251 mulf,
    binary main_v1250 main_v1251 main_v1252 addf,
    binary main_v26 main_v984 main_v1253 mulf,
    binary main_v1252 main_v1253 main_v1254 addf,
    binary main_v38 main_v1199 main_v1255 mulf,
    binary main_v36 main_v529 main_v1256 mulf,
    binary main_v1255 main_v1256 main_v1257 addf,
    binary main_v44 main_v674 main_v1258 mulf,
    binary main_v1257 main_v1258 main_v1259 addf,
    binary main_v30 main_v299 main_v1260 mulf,
    binary main_v34 main_v344 main_v1261 mulf,
    binary main_v1260 main_v1261 main_v1262 addf,
    binary main_v26 main_v459 main_v1263 mulf,
    binary main_v1262 main_v1263 main_v1264 addf,
    binary main_v40 main_v739 main_v1265 mulf,
    binary main_v30 main_v909 main_v1266 mulf,
    binary main_v1265 main_v1266 main_v1267 addf,
    binary main_v42 main_v379 main_v1268 mulf,
    binary main_v1267 main_v1268 main_v1269 addf,
    binary main_v30 main_v739 main_v1270 mulf,
    binary main_v38 main_v1154 main_v1271 mulf,
    binary main_v1270 main_v1271 main_v1272 addf,
    binary main_v32 main_v874 main_v1273 mulf,
    binary main_v1272 main_v1273 main_v1274 addf,
    binary main_v34 main_v409 main_v1275 mulf,
    binary main_v42 main_v1039 main_v1276 mulf,
    binary main_v1275 main_v1276 main_v1277 addf,
    binary main_v36 main_v564 main_v1278 mulf,
    binary main_v1277 main_v1278 main_v1279 addf,
    binary main_v32 main_v809 main_v1280 mulf,
    binary main_v42 main_v479 main_v1281 mulf,
    binary main_v1280 main_v1281 main_v1282 addf,
    binary main_v36 main_v284 main_v1283 mulf,
    binary main_v1282 main_v1283 main_v1284 addf,
    binary main_v34 main_v824 main_v1285 mulf,
    binary main_v28 main_v56 main_v1286 mulf,
    binary main_v1285 main_v1286 main_v1287 addf,
    binary main_v36 main_v589 main_v1288 mulf,
    binary main_v1287 main_v1288 main_v1289 addf,
    binary main_v44 main_v669 main_v1290 mulf,
    binary main_v32 main_v254 main_v1291 mulf,
    binary main_v1290 main_v1291 main_v1292 addf,
    binary main_v26 main_v1039 main_v1293 mulf,
    binary main_v1292 main_v1293 main_v1294 addf,
    binary main_v28 main_v744 main_v1295 mulf,
    binary main_v34 main_v1259 main_v1296 mulf,
    binary main_v1295 main_v1296 main_v1297 addf,
    binary main_v30 main_v1199 main_v1298 mulf,
    binary main_v1297 main_v1298 main_v1299 addf,
    binary main_v44 main_v1184 main_v1300 mulf,
    binary main_v28 main_v864 main_v1301 mulf,
    binary main_v1300 main_v1301 main_v1302 addf,
    binary main_v32 main_v109 main_v1303 mulf,
    binary main_v1302 main_v1303 main_v1304 addf,
    binary main_v38 main_v624 main_v1305 mulf,
    binary main_v36 main_v584 main_v1306 mulf ]

theorem part21_eq (c : Dev nD) : main_part21 (F := F) c = seq ops21 := rfl

theorem ops21_line : Ssa.Line 1271 (ops21 : List (HloOp τ sig (Elt F))) 1331 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefOps.Part22.lean ====
import proofs.«149770_j20074677141979_1_alg».proof.Proof.RefIdx

set_option maxRecDepth 8192

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

abbrev ops22 : List (HloOp τ sig (Elt F)) :=
  [ binary main_v1305 main_v1306 main_v1307 addf,
    binary main_v44 main_v1064 main_v1308 mulf,
    binary main_v1307 main_v1308 main_v1309 addf,
    binary main_v40 main_v1129 main_v1310 mulf,
    binary main_v28 main_v264 main_v1311 mulf,
    binary main_v1310 main_v1311 main_v1312 addf,
    binary main_v36 main_v164 main_v1313 mulf,
    binary main_v1312 main_v1313 main_v1314 addf,
    binary main_v26 main_v299 main_v1315 mulf,
    binary main_v44 main_v299 main_v1316 mulf,
    binary main_v1315 main_v1316 main_v1317 addf,
    binary main_v38 main_v1244 main_v1318 mulf,
    binary main_v1317 main_v1318 main_v1319 addf,
    binary main_v40 main_v694 main_v1320 mulf,
    binary main_v30 main_v1269 main_v1321 mulf,
    binary main_v1320 main_v1321 main_v1322 addf,
    binary main_v26 main_v1094 main_v1323 mulf,
    binary main_v1322 main_v1323 main_v1324 addf,
    binary main_v38 main_v72 main_v1325 mulf,
    binary main_v40 main_v1004 main_v1326 mulf,
    binary main_v1325 main_v1326 main_v1327 addf,
    binary main_v36 main_v44 main_v1328 mulf,
    binary main_v1327 main_v1328 main_v1329 addf,
    binary main_v38 main_v754 main_v1330 mulf,
    binary main_v32 main_v544 main_v1331 mulf,
    binary main_v1330 main_v1331 main_v1332 addf,
    binary main_v42 main_v369 main_v1333 mulf,
    binary main_v1332 main_v1333 main_v1334 addf,
    binary main_v40 main_v56 main_v1335 mulf,
    binary main_v26 main_v479 main_v1336 mulf,
    binary main_v1335 main_v1336 main_v1337 addf,
    binary main_v28 main_v654 main_v1338 mulf,
    binary main_v1337 main_v1338 main_v1339 addf,
    binary main_v38 main_v109 main_v1340 mulf,
    binary main_v28 main_v1079 main_v1341 mulf,
    binary main_v1340 main_v1341 main_v1342 addf,
    binary main_v26 main_v1119 main_v1343 mulf,
    binary main_v1342 main_v1343 main_v1344 addf,
    binary main_v26 main_v909 main_v1345 mulf,
    binary main_v34 main_v1294 main_v1346 mulf,
    binary main_v1345 main_v1346 main_v1347 addf,
    binary main_v40 main_v134 main_v1348 mulf,
    binary main_v1347 main_v1348 main_v1349 addf,
    binary main_v32 main_v864 main_v1350 mulf,
    binary main_v34 main_v534 main_v1351 mulf,
    binary main_v1350 main_v1351 main_v1352 addf,
    binary main_v40 main_v1289 main_v1353 mulf,
    binary main_v1352 main_v1353 main_v1354 addf,
    binary main_v36 main_v339 main_v1355 mulf,
    binary main_v42 main_v1229 main_v1356 mulf,
    binary main_v1355 main_v1356 main_v1357 addf,
    binary main_v28 main_v464 main_v1358 mulf,
    binary main_v1357 main_v1358 main_v1359 addf,
    binary main_v34 main_v1289 main_v1360 mulf,
    binary main_v32 main_v624 main_v1361 mulf,
    binary main_v1360 main_v1361 main_v1362 addf,
    binary main_v36 main_v499 main_v1363 mulf,
    binary main_v1362 main_v1363 main_v1364 addf ]

theorem part22_eq (c : Dev nD) : main_part22 (F := F) c = seq ops22 := rfl

theorem ops22_line : Ssa.Line 1331 (ops22 : List (HloOp τ sig (Elt F))) 1389 :=
  ⟨sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, sB, rfl⟩

end Cert.ReferenceIdeal.Hand

end
-- ==== Proof.RefRun.lean ====
import proofs.«149770_j20074677141979_1_alg».proof.Proof.RefOps.Part0
import proofs.«149770_j20074677141979_1_alg».proof.Proof.RefOps.Part1
import proofs.«149770_j20074677141979_1_alg».proof.Proof.RefOps.Part2
import proofs.«149770_j20074677141979_1_alg».proof.Proof.RefOps.Part3
import proofs.«149770_j20074677141979_1_alg».proof.Proof.RefOps.Part4
import proofs.«149770_j20074677141979_1_alg».proof.Proof.RefOps.Part5
import proofs.«149770_j20074677141979_1_alg».proof.Proof.RefOps.Part6
import proofs.«149770_j20074677141979_1_alg».proof.Proof.RefOps.Part7
import proofs.«149770_j20074677141979_1_alg».proof.Proof.RefOps.Part8
import proofs.«149770_j20074677141979_1_alg».proof.Proof.RefOps.Part9
import proofs.«149770_j20074677141979_1_alg».proof.Proof.RefOps.Part10
import proofs.«149770_j20074677141979_1_alg».proof.Proof.RefOps.Part11
import proofs.«149770_j20074677141979_1_alg».proof.Proof.RefOps.Part12
import proofs.«149770_j20074677141979_1_alg».proof.Proof.RefOps.Part13
import proofs.«149770_j20074677141979_1_alg».proof.Proof.RefOps.Part14
import proofs.«149770_j20074677141979_1_alg».proof.Proof.RefOps.Part15
import proofs.«149770_j20074677141979_1_alg».proof.Proof.RefOps.Part16
import proofs.«149770_j20074677141979_1_alg».proof.Proof.RefOps.Part17
import proofs.«149770_j20074677141979_1_alg».proof.Proof.RefOps.Part18
import proofs.«149770_j20074677141979_1_alg».proof.Proof.RefOps.Part19
import proofs.«149770_j20074677141979_1_alg».proof.Proof.RefOps.Part20
import proofs.«149770_j20074677141979_1_alg».proof.Proof.RefOps.Part21
import proofs.«149770_j20074677141979_1_alg».proof.Proof.RefOps.Part22

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev parts : List (List (HloOp τ sig (Elt F))) := [ops0, ops1, ops2, ops3, ops4, ops5, ops6, ops7, ops8, ops9, ops10, ops11, ops12, ops13, ops14, ops15, ops16, ops17, ops18, ops19, ops20, ops21, ops22]

/-- The reference's whole host line: its windows one after the other. -/
abbrev allOps : List (HloOp τ sig (Elt F)) := parts.flatten

theorem main_eq (c : Dev nD) : main (F := F) c = seq (allOps (F := F)) := by
  simp only [allOps, parts, List.flatten_cons, List.flatten_nil, List.append_nil, seq_append]
  rw [← part0_eq c, ← part1_eq c, ← part2_eq c, ← part3_eq c, ← part4_eq c, ← part5_eq c, ← part6_eq c, ← part7_eq c, ← part8_eq c, ← part9_eq c, ← part10_eq c, ← part11_eq c, ← part12_eq c, ← part13_eq c, ← part14_eq c, ← part15_eq c, ← part16_eq c, ← part17_eq c, ← part18_eq c, ← part19_eq c, ← part20_eq c, ← part21_eq c, ← part22_eq c]
  rfl

theorem scopedRefs_eq : (Finset.univ.filter fun b : Ref sig .tc => b.isScoped) = ∅ := by decide
theorem scopedSems_eq : (Finset.univ.filter fun sm : SemLoc sig => sm.isScoped .tc) = ∅ := by decide

/-- The line is in single-assignment order from reference 7 on; the arguments are the references 0 … 6. -/
theorem allOps_line : Ssa.Line 7 (allOps : List (HloOp τ sig (Elt F))) 1389 :=
  ops0_line.append <| ops1_line.append <| ops2_line.append <| ops3_line.append <| ops4_line.append <| ops5_line.append <| ops6_line.append <| ops7_line.append <| ops8_line.append <| ops9_line.append <| ops10_line.append <| ops11_line.append <| ops12_line.append <| ops13_line.append <| ops14_line.append <| ops15_line.append <| ops16_line.append <| ops17_line.append <| ops18_line.append <| ops19_line.append <| ops20_line.append <| ops21_line.append <| ops22_line.append <| rfl

/-- What the buffers of device `c` hold after the line, from the launch memory `m`. -/
def Fref (m : (ℓ : Loc nD τ sig) → Buf (Elt F) ℓ) (c : Dev nD) : Valuation τ sig (Elt F) :=
  after allOps (launchContents m c)

theorem Fref_fix (m : (ℓ : Loc nD τ sig) → Buf (Elt F) ℓ) (c : Dev nD) : Ssa.Fix (allOps (F := F)) (Fref m c) :=
  Ssa.fixed allOps_line _

theorem Fref_arg (m : (ℓ : Loc nD τ sig) → Buf (Elt F) ℓ) (c : Dev nD) (r : Ref sig .tc) (hr : Ssa.key r < 7) :
    Fref m c (Proc.devRef .tc r) = launchContents m c (Proc.devRef .tc r) :=
  Ssa.after_below allOps_line _ r hr

/-- In a final memory that holds `Fref`, an argument is as launched. -/
theorem kept (m : (ℓ : Loc nD τ sig) → Buf (Elt F) ℓ) (c : Dev nD) {mem : (ℓ : Loc nD τ sig) → Buf (Elt F) ℓ}
    (h : ∀ b : Ref sig .tc, mem ((c.tc : Thread nD τ).loc b) = Fref m c (Proc.devRef .tc b)) (r : Ref sig .tc)
    (hr : Ssa.key r < 7 := by decide) : mem ((c.tc : Thread nD τ).loc r) = m ((c.tc : Thread nD τ).loc r) :=
  (h r).trans (Fref_arg m c r hr)

theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = Fref m d (Proc.devRef .tc b) :=
  run_seq scopedRefs_eq scopedSems_eq defs main (fun _ => allOps) main_eq (fun _ => allOps_line.sub) m ρ (fun _ => allOps_line.fresh)

end Cert.ReferenceIdeal.Hand

end
-- ==== Proof.RefCircuit.lean ====
import proofs.«149770_j20074677141979_1_alg».proof.Proof.RefRun
import proofs.«149770_j20074677141979_1_alg».proof.Proof.RefRead
import Idealize.ShloMosaic.Lib.ValueIdx
import Idealize.ShloMosaic.Lib.Pipeline.Value

set_option maxRecDepth 8192

noncomputable section

namespace Cert.ReferenceIdeal.Hand

open Cert.ReferenceIdeal Cert.ReferenceIdeal.Gen Idealize.ShloMosaic Idealize.ShloMosaic.ValueIdx Idealize.ShloMosaic.StableHlo

/-- Column `k` of a [8192, 10] array, cut out and recast to a vector, read at row `R`, is the array at (R, k). -/
theorem slice_reshape_apply {α : Type} (y : S8192x10.Idx → α) (off : Fin S8192x10.rank → Nat) (h : S8192x10.Slices off S8192x1)
    (k : Fin 10) (h0 : off 0 = 0) (h1 : off 1 = k.val) (R : Fin 8192) :
    shapeCast S8192 (extractStridedSlice S8192x1 off y h) shapeCasts_S8192x1_S8192 (ix1 R) = y (ix2 R k) := by
  rw [shapeCast_apply _ shapeCasts_S8192x1_S8192 (ix1 R) (ix2 R (0 : Fin 1)) (by
    rw [Shape.rowMajor_val_two, Shape.rowMajor_val_one]; show R.val * 1 + 0 = R.val; omega)]
  exact extractStridedSlice_apply off y h (ix2 R (0 : Fin 1)) (ix2 R k) (fun a => match a with
    | ⟨0, _⟩ => by show R.val = off 0 + R.val; rw [h0]; omega
    | ⟨1, _⟩ => by show k.val = off 1 + 0; rw [h1]; omega)

theorem compl_apply (z : (⟨S8192, .f32⟩ : BufTy).Contents (Elt Ideal)) (R : Fin 8192) :
    subf (F := Ideal) (broadcastInDim S8192 ![] bcast_S_S8192 (constant S_ .f32 0x3F800000#32)) z (ix1 R)
      = Ideal.ofBits .f32 0x3F800000#32 - z (ix1 R) := rfl

variable (G : Valuation τ sig (Elt Ideal)) (hG : Ssa.Fix (allOps (F := Ideal)) G) (R : Fin 8192)
include hG

theorem leafP0 : G (Proc.devRef .tc main_v26) (ix1 R) = G (Proc.devRef .tc main_v24) (ix2 R (0 : Fin 10)) := by
  rw [(hG.part 0 rfl).reshape 33 rfl, (hG.part 0 rfl).unary 32 rfl]
  exact slice_reshape_apply _ _ _ 0 rfl rfl R

theorem leafP1 : G (Proc.devRef .tc main_v28) (ix1 R) = G (Proc.devRef .tc main_v24) (ix2 R (1 : Fin 10)) := by
  rw [(hG.part 0 rfl).reshape 35 rfl, (hG.part 0 rfl).unary 34 rfl]
  exact slice_reshape_apply _ _ _ 1 rfl rfl R

theorem leafP2 : G (Proc.devRef .tc main_v30) (ix1 R) = G (Proc.devRef .tc main_v24) (ix2 R (2 : Fin 10)) := by
  rw [(hG.part 0 rfl).reshape 37 rfl, (hG.part 0 rfl).unary 36 rfl]
  exact slice_reshape_apply _ _ _ 2 rfl rfl R

theorem leafP3 : G (Proc.devRef .tc main_v32) (ix1 R) = G (Proc.devRef .tc main_v24) (ix2 R (3 : Fin 10)) := by
  rw [(hG.part 0 rfl).reshape 39 rfl, (hG.part 0 rfl).unary 38 rfl]
  exact slice_reshape_apply _ _ _ 3 rfl rfl R

theorem leafP4 : G (Proc.devRef .tc main_v34) (ix1 R) = G (Proc.devRef .tc main_v24) (ix2 R (4 : Fin 10)) := by
  rw [(hG.part 0 rfl).reshape 41 rfl, (hG.part 0 rfl).unary 40 rfl]
  exact slice_reshape_apply _ _ _ 4 rfl rfl R

theorem leafP5 : G (Proc.devRef .tc main_v36) (ix1 R) = G (Proc.devRef .tc main_v24) (ix2 R (5 : Fin 10)) := by
  rw [(hG.part 0 rfl).reshape 43 rfl, (hG.part 0 rfl).unary 42 rfl]
  exact slice_reshape_apply _ _ _ 5 rfl rfl R

theorem leafP6 : G (Proc.devRef .tc main_v38) (ix1 R) = G (Proc.devRef .tc main_v24) (ix2 R (6 : Fin 10)) := by
  rw [(hG.part 0 rfl).reshape 45 rfl, (hG.part 0 rfl).unary 44 rfl]
  exact slice_reshape_apply _ _ _ 6 rfl rfl R

theorem leafP7 : G (Proc.devRef .tc main_v40) (ix1 R) = G (Proc.devRef .tc main_v24) (ix2 R (7 : Fin 10)) := by
  rw [(hG.part 0 rfl).reshape 47 rfl, (hG.part 0 rfl).unary 46 rfl]
  exact slice_reshape_apply _ _ _ 7 rfl rfl R

theorem leafP8 : G (Proc.devRef .tc main_v42) (ix1 R) = G (Proc.devRef .tc main_v24) (ix2 R (8 : Fin 10)) := by
  rw [(hG.part 0 rfl).reshape 49 rfl, (hG.part 0 rfl).unary 48 rfl]
  exact slice_reshape_apply _ _ _ 8 rfl rfl R

theorem leafP9 : G (Proc.devRef .tc main_v44) (ix1 R) = G (Proc.devRef .tc main_v24) (ix2 R (9 : Fin 10)) := by
  rw [(hG.part 0 rfl).reshape 51 rfl, (hG.part 0 rfl).unary 50 rfl]
  exact slice_reshape_apply _ _ _ 9 rfl rfl R

theorem leafN0 : G (Proc.devRef .tc main_v48) (ix1 R)
    = Ideal.ofBits .f32 0x3F800000#32 - G (Proc.devRef .tc main_v24) (ix2 R (0 : Fin 10)) := by
  rw [(hG.part 0 rfl).binary 56 rfl, (hG.part 0 rfl).unary 55 rfl, (hG.part 0 rfl).nullary 54 rfl, (hG.part 0 rfl).reshape 53 rfl, (hG.part 0 rfl).unary 52 rfl]
  exact (compl_apply _ R).trans (congrArg (Ideal.ofBits .f32 0x3F800000#32 - ·) (slice_reshape_apply _ _ _ 0 rfl rfl R))

theorem leafN1 : G (Proc.devRef .tc main_v52) (ix1 R)
    = Ideal.ofBits .f32 0x3F800000#32 - G (Proc.devRef .tc main_v24) (ix2 R (1 : Fin 10)) := by
  rw [(hG.part 0 rfl).binary 61 rfl, (hG.part 0 rfl).unary 60 rfl, (hG.part 0 rfl).nullary 59 rfl, (hG.part 0 rfl).reshape 58 rfl, (hG.part 0 rfl).unary 57 rfl]
  exact (compl_apply _ R).trans (congrArg (Ideal.ofBits .f32 0x3F800000#32 - ·) (slice_reshape_apply _ _ _ 1 rfl rfl R))

theorem leafN2 : G (Proc.devRef .tc main_v56) (ix1 R)
    = Ideal.ofBits .f32 0x3F800000#32 - G (Proc.devRef .tc main_v24) (ix2 R (2 : Fin 10)) := by
  rw [(hG.part 1 rfl).binary 2 rfl, (hG.part 1 rfl).unary 1 rfl, (hG.part 1 rfl).nullary 0 rfl, (hG.part 0 rfl).reshape 63 rfl, (hG.part 0 rfl).unary 62 rfl]
  exact (compl_apply _ R).trans (congrArg (Ideal.ofBits .f32 0x3F800000#32 - ·) (slice_reshape_apply _ _ _ 2 rfl rfl R))

theorem leafN3 : G (Proc.devRef .tc main_v60) (ix1 R)
    = Ideal.ofBits .f32 0x3F800000#32 - G (Proc.devRef .tc main_v24) (ix2 R (3 : Fin 10)) := by
  rw [(hG.part 1 rfl).binary 7 rfl, (hG.part 1 rfl).unary 6 rfl, (hG.part 1 rfl).nullary 5 rfl, (hG.part 1 rfl).reshape 4 rfl, (hG.part 1 rfl).unary 3 rfl]
  exact (compl_apply _ R).trans (congrArg (Ideal.ofBits .f32 0x3F800000#32 - ·) (slice_reshape_apply _ _ _ 3 rfl rfl R))

theorem leafN4 : G (Proc.devRef .tc main_v64) (ix1 R)
    = Ideal.ofBits .f32 0x3F800000#32 - G (Proc.devRef .tc main_v24) (ix2 R (4 : Fin 10)) := by
  rw [(hG.part 1 rfl).binary 12 rfl, (hG.part 1 rfl).unary 11 rfl, (hG.part 1 rfl).nullary 10 rfl, (hG.part 1 rfl).reshape 9 rfl, (hG.part 1 rfl).unary 8 rfl]
  exact (compl_apply _ R).trans (congrArg (Ideal.ofBits .f32 0x3F800000#32 - ·) (slice_reshape_apply _ _ _ 4 rfl rfl R))

theorem leafN5 : G (Proc.devRef .tc main_v68) (ix1 R)
    = Ideal.ofBits .f32 0x3F800000#32 - G (Proc.devRef .tc main_v24) (ix2 R (5 : Fin 10)) := by
  rw [(hG.part 1 rfl).binary 17 rfl, (hG.part 1 rfl).unary 16 rfl, (hG.part 1 rfl).nullary 15 rfl, (hG.part 1 rfl).reshape 14 rfl, (hG.part 1 rfl).unary 13 rfl]
  exact (compl_apply _ R).trans (congrArg (Ideal.ofBits .f32 0x3F800000#32 - ·) (slice_reshape_apply _ _ _ 5 rfl rfl R))

theorem leafN6 : G (Proc.devRef .tc main_v72) (ix1 R)
    = Ideal.ofBits .f32 0x3F800000#32 - G (Proc.devRef .tc main_v24) (ix2 R (6 : Fin 10)) := by
  rw [(hG.part 1 rfl).binary 22 rfl, (hG.part 1 rfl).unary 21 rfl, (hG.part 1 rfl).nullary 20 rfl, (hG.part 1 rfl).reshape 19 rfl, (hG.part 1 rfl).unary 18 rfl]
  exact (compl_apply _ R).trans (congrArg (Ideal.ofBits .f32 0x3F800000#32 - ·) (slice_reshape_apply _ _ _ 6 rfl rfl R))

theorem leafN7 : G (Proc.devRef .tc main_v76) (ix1 R)
    = Ideal.ofBits .f32 0x3F800000#32 - G (Proc.devRef .tc main_v24) (ix2 R (7 : Fin 10)) := by
  rw [(hG.part 1 rfl).binary 27 rfl, (hG.part 1 rfl).unary 26 rfl, (hG.part 1 rfl).nullary 25 rfl, (hG.part 1 rfl).reshape 24 rfl, (hG.part 1 rfl).unary 23 rfl]
  exact (compl_apply _ R).trans (congrArg (Ideal.ofBits .f32 0x3F800000#32 - ·) (slice_reshape_apply _ _ _ 7 rfl rfl R))

theorem leafN8 : G (Proc.devRef .tc main_v80) (ix1 R)
    = Ideal.ofBits .f32 0x3F800000#32 - G (Proc.devRef .tc main_v24) (ix2 R (8 : Fin 10)) := by
  rw [(hG.part 1 rfl).binary 32 rfl, (hG.part 1 rfl).unary 31 rfl, (hG.part 1 rfl).nullary 30 rfl, (hG.part 1 rfl).reshape 29 rfl, (hG.part 1 rfl).unary 28 rfl]
  exact (compl_apply _ R).trans (congrArg (Ideal.ofBits .f32 0x3F800000#32 - ·) (slice_reshape_apply _ _ _ 8 rfl rfl R))

theorem leafN9 : G (Proc.devRef .tc main_v84) (ix1 R)
    = Ideal.ofBits .f32 0x3F800000#32 - G (Proc.devRef .tc main_v24) (ix2 R (9 : Fin 10)) := by
  rw [(hG.part 1 rfl).binary 37 rfl, (hG.part 1 rfl).unary 36 rfl, (hG.part 1 rfl).nullary 35 rfl, (hG.part 1 rfl).reshape 34 rfl, (hG.part 1 rfl).unary 33 rfl]
  exact (compl_apply _ R).trans (congrArg (Ideal.ofBits .f32 0x3F800000#32 - ·) (slice_reshape_apply _ _ _ 9 rfl rfl R))

/-- The probabilities are the stages' softmax of the arguments. -/
theorem probs_eq : G (Proc.devRef .tc main_v24)
    = ReadP.val_main_v24 (F := Ideal) (G (Proc.devRef .tc main_arg0)) (G (Proc.devRef .tc main_arg1)) (G (Proc.devRef .tc main_arg2))
        (G (Proc.devRef .tc main_arg3)) (G (Proc.devRef .tc main_arg4)) (G (Proc.devRef .tc main_arg5)) (G (Proc.devRef .tc main_arg6)) := by
  have h := hG.part 0 rfl
  rw [h.binary 31 rfl, h.unary 30 rfl, h.unary 29 rfl, h.binary 28 rfl, h.nullary 27 rfl, h.unary 26 rfl, h.binary 25 rfl, h.unary 24 rfl, h.unary 23 rfl, h.binary 22 rfl, h.unary 21 rfl, h.nullary 20 rfl, h.binary 19 rfl, h.nullary 18 rfl, h.binary 17 rfl, h.unary 16 rfl, h.unary 15 rfl, h.binary 14 rfl, h.binary 13 rfl, h.unary 12 rfl, h.nullary 11 rfl, h.binary 10 rfl, h.unary 9 rfl, h.unary 8 rfl, h.binary 7 rfl, h.binary 6 rfl, h.unary 5 rfl, h.nullary 4 rfl, h.binary 3 rfl, h.unary 2 rfl, h.unary 1 rfl, h.binary 0 rfl]
  rfl

end Cert.ReferenceIdeal.Hand

end
-- ==== Proof.Bridge.lean ====
import proofs.«149770_j20074677141979_1_alg».proof.Proof.KPay
import proofs.«149770_j20074677141979_1_alg».proof.Proof.RefCircuit

set_option maxRecDepth 65536

noncomputable section

namespace Cert.Bridge

open Idealize.ShloMosaic Idealize.ShloMosaic.ValueIdx Cert.ReferenceIdeal Cert.ReferenceIdeal.Hand Cert.KernelIdeal.Gen Cert.KernelIdeal.Hand

theorem cast_col (v : FVec Ideal Cert.KernelIdeal.S1024x1 .f32) (h : Cert.KernelIdeal.S1024x1.ShapeCasts Cert.KernelIdeal.S1024) (r : Fin 1024) :
    shapeCast Cert.KernelIdeal.S1024 v h (ix1 r) = v (ix2 r (0 : Fin 1)) := by
  refine shapeCast_apply v h (ix1 r) (ix2 r (0 : Fin 1)) ?_
  rw [Shape.rowMajor_val_two, Shape.rowMajor_val_one]
  show r.val * 1 + 0 = r.val
  omega

set_option maxHeartbeats 4000000 in
/-- Read at a row, the kernel's stored value and the reference's result are one tree of sums of products over the row's
    ten probabilities and their complements. -/
theorem bridge (X0 : Vec Ideal Cert.KernelIdeal.S1024x4096 .bf16) (X1 : Vec Ideal Cert.KernelIdeal.S4096x10 .bf16) (X2 : Vec Ideal Cert.KernelIdeal.S10 .f32)
    (G : Valuation τ sig (Elt Ideal)) (hG : StableHlo.Ssa.Fix (allOps (F := Ideal)) G) (r : Fin 1024) (R : Fin 8192)
    (hP : ∀ k : Fin 10, k2_pay5 (F := Ideal) X0 X1 X2 (ix2 r k) = G (Proc.devRef .tc main_v24) (ix2 R k)) :
    out2_3 (F := Ideal) X0 X1 X2 (ix1 r) = G (Proc.devRef .tc main_v1364) (ix1 R) := by
  have hz1 : (![0] : Fin 1 → Nat) = fun _ => 0 := funext fun a => by fin_cases a; rfl
  have hz2 : (![0, 0] : Fin 2 → Nat) = fun _ => 0 := funext fun a => by fin_cases a <;> rfl
  have h1 := hG.part 1 rfl
  have h2 := hG.part 2 rfl
  have h3 := hG.part 3 rfl
  have h4 := hG.part 4 rfl
  have h5 := hG.part 5 rfl
  have h6 := hG.part 6 rfl
  have h7 := hG.part 7 rfl
  have h8 := hG.part 8 rfl
  have h9 := hG.part 9 rfl
  have h10 := hG.part 10 rfl
  have h11 := hG.part 11 rfl
  have h12 := hG.part 12 rfl
  have h13 := hG.part 13 rfl
  have h21 := hG.part 21 rfl
  have h22 := hG.part 22 rfl
  unfold out2_3
  rw [View.canon_unit_zero hz1]
  simp only [View.ld_unit_zero (S := Cert.KernelIdeal.S1024x4096) hz2, View.ld_unit_zero (S := Cert.KernelIdeal.S4096x10) hz2, View.ld_unit_zero (S := Cert.KernelIdeal.S10) hz1]
  simp only [
    k2_pay1, k2_pay2, k2_pay3, k2_pay4, k2_pay26, k2_pay27, k2_pay28, k2_pay29, k2_pay30, k2_pay31, k2_pay32, k2_pay33, k2_pay34, k2_pay35, k2_pay36,
    k2_pay37, k2_pay38, k2_pay39, k2_pay40, k2_pay41, k2_pay42, k2_pay43, k2_pay44, k2_pay45, k2_pay46, k2_pay47, k2_pay48, k2_pay49, k2_pay50,
    k2_pay51, k2_pay52, k2_pay53, k2_pay54, k2_pay55, k2_pay56, k2_pay57, k2_pay58, k2_pay59, k2_pay60, k2_pay61, k2_pay62, k2_pay63, k2_pay64,
    k2_pay65, k2_pay66, k2_pay67, k2_pay68, k2_pay69, k2_pay70,
    cast_col, mulf_apply, addf_apply,
    k2_pay6_apply, k2_pay7_apply, k2_pay8_apply, k2_pay9_apply, k2_pay10_apply, k2_pay11_apply, k2_pay12_apply, k2_pay13_apply, k2_pay14_apply,
    k2_pay15_apply, k2_pay16_apply, k2_pay17_apply, k2_pay18_apply, k2_pay19_apply, k2_pay20_apply, k2_pay21_apply, k2_pay22_apply, k2_pay23_apply,
    k2_pay24_apply, k2_pay25_apply, hP]
  simp only [
    h1.binary 38 rfl, h1.binary 39 rfl, h1.binary 40 rfl, h1.binary 41 rfl, h1.binary 42 rfl, h1.binary 43 rfl, h1.binary 44 rfl, h1.binary 45 rfl,
    h1.binary 46 rfl, h1.binary 47 rfl, h1.binary 48 rfl, h1.binary 49 rfl, h1.binary 50 rfl, h1.binary 51 rfl, h1.binary 52 rfl, h1.binary 53 rfl,
    h1.binary 54 rfl, h1.binary 55 rfl, h1.binary 56 rfl, h1.binary 57 rfl, h1.binary 58 rfl, h1.binary 59 rfl, h2.binary 0 rfl, h2.binary 1 rfl,
    h2.binary 2 rfl, h2.binary 3 rfl, h2.binary 4 rfl, h2.binary 5 rfl, h2.binary 6 rfl, h2.binary 7 rfl, h2.binary 8 rfl, h2.binary 9 rfl,
    h2.binary 10 rfl, h2.binary 11 rfl, h2.binary 12 rfl, h2.binary 13 rfl, h2.binary 14 rfl, h2.binary 15 rfl, h2.binary 16 rfl, h2.binary 17 rfl,
    h2.binary 18 rfl, h2.binary 19 rfl, h2.binary 20 rfl, h2.binary 21 rfl, h2.binary 22 rfl, h2.binary 23 rfl, h2.binary 24 rfl, h2.binary 25 rfl,
    h2.binary 26 rfl, h2.binary 27 rfl, h2.binary 28 rfl, h2.binary 29 rfl, h2.binary 30 rfl, h2.binary 31 rfl, h2.binary 32 rfl, h2.binary 33 rfl,
    h2.binary 34 rfl, h2.binary 35 rfl, h2.binary 36 rfl, h2.binary 37 rfl, h2.binary 38 rfl, h2.binary 39 rfl, h2.binary 40 rfl, h2.binary 41 rfl,
    h2.binary 42 rfl, h2.binary 43 rfl, h2.binary 44 rfl, h2.binary 45 rfl, h2.binary 46 rfl, h2.binary 47 rfl, h2.binary 48 rfl, h2.binary 49 rfl,
    h2.binary 50 rfl, h2.binary 51 rfl, h2.binary 52 rfl, h2.binary 53 rfl, h2.binary 54 rfl, h2.binary 55 rfl, h2.binary 56 rfl, h2.binary 57 rfl,
    h2.binary 58 rfl, h2.binary 59 rfl, h3.binary 0 rfl, h3.binary 1 rfl, h3.binary 2 rfl, h3.binary 3 rfl, h3.binary 4 rfl, h3.binary 5 rfl,
    h3.binary 6 rfl, h3.binary 7 rfl, h3.binary 8 rfl, h3.binary 9 rfl, h3.binary 10 rfl, h3.binary 11 rfl, h3.binary 12 rfl, h3.binary 13 rfl,
    h3.binary 14 rfl, h3.binary 15 rfl, h3.binary 16 rfl, h3.binary 17 rfl, h3.binary 18 rfl, h3.binary 19 rfl, h3.binary 20 rfl, h3.binary 21 rfl,
    h3.binary 22 rfl, h3.binary 23 rfl, h3.binary 24 rfl, h3.binary 25 rfl, h3.binary 26 rfl, h3.binary 27 rfl, h3.binary 28 rfl, h3.binary 29 rfl,
    h3.binary 30 rfl, h3.binary 31 rfl, h3.binary 32 rfl, h3.binary 33 rfl, h3.binary 34 rfl, h3.binary 35 rfl, h3.binary 36 rfl, h3.binary 37 rfl,
    h3.binary 43 rfl, h3.binary 44 rfl, h3.binary 45 rfl, h3.binary 46 rfl, h3.binary 47 rfl, h3.binary 48 rfl, h3.binary 49 rfl, h3.binary 50 rfl,
    h3.binary 51 rfl, h3.binary 52 rfl, h3.binary 53 rfl, h3.binary 54 rfl, h3.binary 55 rfl, h3.binary 56 rfl, h3.binary 57 rfl, h3.binary 58 rfl,
    h3.binary 59 rfl, h4.binary 0 rfl, h4.binary 1 rfl, h4.binary 2 rfl, h4.binary 3 rfl, h4.binary 4 rfl, h4.binary 5 rfl, h4.binary 6 rfl,
    h4.binary 7 rfl, h4.binary 8 rfl, h4.binary 9 rfl, h4.binary 10 rfl, h4.binary 11 rfl, h4.binary 12 rfl, h4.binary 13 rfl, h4.binary 14 rfl,
    h4.binary 15 rfl, h4.binary 16 rfl, h4.binary 17 rfl, h4.binary 18 rfl, h4.binary 19 rfl, h4.binary 20 rfl, h4.binary 21 rfl, h4.binary 22 rfl,
    h4.binary 28 rfl, h4.binary 29 rfl, h4.binary 30 rfl, h4.binary 31 rfl, h4.binary 32 rfl, h4.binary 33 rfl, h4.binary 34 rfl, h4.binary 35 rfl,
    h4.binary 36 rfl, h4.binary 37 rfl, h4.binary 38 rfl, h4.binary 39 rfl, h4.binary 40 rfl, h4.binary 41 rfl, h4.binary 42 rfl, h5.binary 8 rfl,
    h5.binary 9 rfl, h5.binary 10 rfl, h5.binary 11 rfl, h5.binary 12 rfl, h5.binary 18 rfl, h5.binary 19 rfl, h5.binary 20 rfl, h5.binary 21 rfl,
    h5.binary 22 rfl, h5.binary 23 rfl, h5.binary 24 rfl, h5.binary 25 rfl, h5.binary 26 rfl, h5.binary 27 rfl, h5.binary 33 rfl, h5.binary 34 rfl,
    h5.binary 35 rfl, h5.binary 36 rfl, h5.binary 37 rfl, h5.binary 38 rfl, h5.binary 39 rfl, h5.binary 40 rfl, h5.binary 41 rfl, h5.binary 42 rfl,
    h5.binary 43 rfl, h5.binary 44 rfl, h5.binary 45 rfl, h5.binary 46 rfl, h5.binary 47 rfl, h5.binary 53 rfl, h5.binary 54 rfl, h5.binary 55 rfl,
    h5.binary 56 rfl, h5.binary 57 rfl, h5.binary 58 rfl, h5.binary 59 rfl, h6.binary 0 rfl, h6.binary 1 rfl, h6.binary 2 rfl, h6.binary 3 rfl,
    h6.binary 4 rfl, h6.binary 5 rfl, h6.binary 6 rfl, h6.binary 7 rfl, h6.binary 18 rfl, h6.binary 19 rfl, h6.binary 20 rfl, h6.binary 21 rfl,
    h6.binary 22 rfl, h6.binary 23 rfl, h6.binary 24 rfl, h6.binary 25 rfl, h6.binary 26 rfl, h6.binary 27 rfl, h6.binary 38 rfl, h6.binary 39 rfl,
    h6.binary 40 rfl, h6.binary 41 rfl, h6.binary 42 rfl, h6.binary 53 rfl, h6.binary 54 rfl, h6.binary 55 rfl, h6.binary 56 rfl, h6.binary 57 rfl,
    h7.binary 23 rfl, h7.binary 24 rfl, h7.binary 25 rfl, h7.binary 26 rfl, h7.binary 27 rfl, h7.binary 38 rfl, h7.binary 39 rfl, h7.binary 40 rfl,
    h7.binary 41 rfl, h7.binary 42 rfl, h7.binary 48 rfl, h7.binary 49 rfl, h7.binary 50 rfl, h7.binary 51 rfl, h7.binary 52 rfl, h7.binary 58 rfl,
    h7.binary 59 rfl, h8.binary 0 rfl, h8.binary 1 rfl, h8.binary 2 rfl, h8.binary 23 rfl, h8.binary 24 rfl, h8.binary 25 rfl, h8.binary 26 rfl,
    h8.binary 27 rfl, h8.binary 28 rfl, h8.binary 29 rfl, h8.binary 30 rfl, h8.binary 31 rfl, h8.binary 32 rfl, h8.binary 58 rfl, h8.binary 59 rfl,
    h9.binary 0 rfl, h9.binary 1 rfl, h9.binary 2 rfl, h9.binary 58 rfl, h9.binary 59 rfl, h10.binary 0 rfl, h10.binary 1 rfl, h10.binary 2 rfl,
    h10.binary 33 rfl, h10.binary 34 rfl, h10.binary 35 rfl, h10.binary 36 rfl, h10.binary 37 rfl, h11.binary 28 rfl, h11.binary 29 rfl,
    h11.binary 30 rfl, h11.binary 31 rfl, h11.binary 32 rfl, h12.binary 13 rfl, h12.binary 14 rfl, h12.binary 15 rfl, h12.binary 16 rfl,
    h12.binary 17 rfl, h12.binary 38 rfl, h12.binary 39 rfl, h12.binary 40 rfl, h12.binary 41 rfl, h12.binary 42 rfl, h13.binary 53 rfl,
    h13.binary 54 rfl, h13.binary 55 rfl, h13.binary 56 rfl, h13.binary 57 rfl, h21.binary 38 rfl, h21.binary 39 rfl, h21.binary 40 rfl,
    h21.binary 41 rfl, h21.binary 42 rfl, h22.binary 53 rfl, h22.binary 54 rfl, h22.binary 55 rfl, h22.binary 56 rfl, h22.binary 57 rfl,
    mulf_apply, addf_apply,
    leafP0 G hG R, leafP1 G hG R, leafP2 G hG R, leafP3 G hG R, leafP4 G hG R, leafP5 G hG R, leafP6 G hG R, leafP7 G hG R, leafP8 G hG R,
    leafP9 G hG R, leafN0 G hG R, leafN1 G hG R, leafN2 G hG R, leafN3 G hG R, leafN4 G hG R, leafN5 G hG R, leafN6 G hG R, leafN7 G hG R,
    leafN8 G hG R, leafN9 G hG R]

end Cert.Bridge

end
-- ==== Proof.lean ====
/-
  A three-layer perceptron, a softmax over ten classes and a fixed circuit of sums of products over the class
  probabilities and their complements, for 8192 rows. The kernel computes the layers in blocks of 512, 128 and 1024
  rows; the reference computes them on whole arrays. Over the extended reals a change of float format is the identity
  and a block's rows of a matrix product are the product's rows, so both sides are one expression at every index;
  no law of arithmetic is used and the precondition is never opened.
-/
import proofs.«149770_j20074677141979_1_alg».proof.Defs
import proofs.«149770_j20074677141979_1_alg».proof.Proof.Gen.Kernel
import proofs.«149770_j20074677141979_1_alg».proof.Proof.Gen.Kernel.Frame
import proofs.«149770_j20074677141979_1_alg».proof.Proof.Gen.KernelIdeal
import proofs.«149770_j20074677141979_1_alg».proof.Proof.Gen.KernelIdeal.Frame
import proofs.«149770_j20074677141979_1_alg».proof.Proof.Gen.ReferenceIdeal
import proofs.«149770_j20074677141979_1_alg».proof.Proof.Gen.Pre_finite_inputs
import proofs.«149770_j20074677141979_1_alg».proof.Proof.KLaunch
import proofs.«149770_j20074677141979_1_alg».proof.Proof.KChain
import proofs.«149770_j20074677141979_1_alg».proof.Proof.Bridge
import Idealize.ShloMosaic.Adequacy
import Idealize.ShloMosaic.Init

noncomputable section

namespace Cert.Proof

open Idealize.ShloMosaic Idealize.SL.Sem Idealize.ShloMosaic.ValueIdx Cert.ReferenceIdeal Cert.ReferenceIdeal.Hand

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run defs _ _).mono (fun _ h c => ⟨kept m c (h c) main_arg0, kept m c (h c) main_arg1, kept m c (h c) main_arg2, kept m c (h c) main_arg3, kept m c (h c) main_arg4, kept m c (h c) main_arg5, kept m c (h c) main_arg6⟩)
    (run (F := Ideal) m ρ)

/-- Both programs end at the reference's final contents of its result: a row of the kernel's last blocks is the circuit
    of the row's probabilities, which are the reference's. -/
theorem algebraic : Cert.algebraic_KernelIdeal_ReferenceIdeal := by
  intro m ρ m' ρ' _ hagree
  refine ⟨fun c => Fref (F := Ideal) m' c (Proc.devRef .tc main_v1364), ?_, ?_⟩
  · refine (θ_run Cert.KernelIdeal.defs _ _).mono (fun r h c => ⟨(h c).1.trans ?_, (h c).2⟩)
      (Cert.KernelIdeal.GenP.run (F := Ideal) m ρ)
    refine Cert.KernelIdeal.Hand.result_eq m ρ c _ (fun X0 X1 X2 r R hk =>
      Cert.Bridge.bridge X0 X1 X2 (Fref m' c) (Fref_fix m' c) r R (fun k => (hk k).trans ?_))
    obtain ⟨e0, e1, e2, e3, e4, e5, e6⟩ := hagree c
    rw [probs_eq (Fref m' c) (Fref_fix m' c), Fref_arg m' c main_arg0 (by decide), Fref_arg m' c main_arg1 (by decide), Fref_arg m' c main_arg2 (by decide), Fref_arg m' c main_arg3 (by decide), Fref_arg m' c main_arg4 (by decide), Fref_arg m' c main_arg5 (by decide), Fref_arg m' c main_arg6 (by decide)]
    show _ = ReadP.val_main_v24 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (ix2 R k)
    rw [e0, e1, e2, e3, e4, e5, e6]
  · exact (θ_run defs _ _).mono (fun _ h c => ⟨h c main_v1364, kept m' c (h c) main_arg0, kept m' c (h c) main_arg1, kept m' c (h c) main_arg2, kept m' c (h c) main_arg3, kept m' c (h c) main_arg4, kept m' c (h c) main_arg5, kept m' c (h c) main_arg6⟩)
      (run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
